-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x2048 : Shape := ⟨3, ![2, 4096, 2048]⟩
abbrev S8192x2048 : Shape := ⟨2, ![8192, 2048]⟩
abbrev S4096x4096 : Shape := ⟨2, ![4096, 4096]⟩
abbrev S160x4096 : Shape := ⟨2, ![160, 4096]⟩
abbrev S4096x128 : Shape := ⟨2, ![4096, 128]⟩
abbrev S4096 : Shape := ⟨1, ![4096]⟩
abbrev S2048x4096 : Shape := ⟨2, ![2048, 4096]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S160x4096 : S_.BroadcastsInDim S160x4096 (![] : Fin 0 → Fin S160x4096.rank)
  reducesTo_S160x4096_S_d0_1 : S160x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S4096 : S_.BroadcastsInDim S4096 (![] : Fin 0 → Fin S4096.rank)
  reducesTo_S4096_S_d0 : S4096.ReducesTo [0] S_
  bcast_S_S2048x4096 : S_.BroadcastsInDim S2048x4096 (![] : Fin 0 → Fin S2048x4096.rank)
  reducesTo_S2048x4096_S_d0_1 : S2048x4096.ReducesTo [0, 1] S_

variable [Facts]

def fn_part2 {F : FTy → Type} [FloatOps F] (main_arg7 : FVec F S2048x4096 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  main_v38

def fn_part1 {F : FTy → Type} [FloatOps F] (main_arg4 : FVec F S4096x128 .f32) (main_arg5 : FVec F S4096 .f32) (main_arg6 : FVec F S4096 .f32) (main_arg7 : FVec F S2048x4096 .f32) (main_v13 : IVec S_ 1) (main_v16 : IVec S160x4096 1) : IVec S_ 1 :=
  let main_c_5 : IVec S_ 1 := constantI S_ 1 1#1
  let main_v17 : IVec S_ 1 := (fun x v => Host.reduce IntOp.andi x v reducesTo_S160x4096_S_d0_1 h_S_) main_v16 main_c_5
  let main_v18 : IVec S_ 1 := andi main_v13 main_v17
  let main_v19 : FVec F S4096x128 .f32 := Host.absf main_arg4
  let main_cst_6 : FVec F S_ .f32 := constant S_ .f32 0x7F800000#32
  let main_v20 : FVec F S4096x128 .f32 := broadcastInDim S4096x128 ![] bcast_S_S4096x128 main_cst_6
  let main_v21 : IVec S4096x128 1 := cmpf .olt main_v19 main_v20
  let main_c_7 : IVec S_ 1 := constantI S_ 1 1#1
  let main_v22 : IVec S_ 1 := (fun x v => Host.reduce IntOp.andi x v reducesTo_S4096x128_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_v33

def fn {F : FTy → Type} [FloatOps F] (main_arg0 : FVec F S2x4096x2048 .f32) (main_arg1 : FVec F S8192x2048 .f32) (main_arg2 : FVec F S4096x4096 .f32) (main_arg3 : FVec F S160x4096 .f32) (main_arg4 : FVec F S4096x128 .f32) (main_arg5 : FVec F S4096 .f32) (main_arg6 : FVec F S4096 .f32) (main_arg7 : FVec F S2048x4096 .f32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S160x4096 .f32 := Host.absf main_arg3
  let main_cst_4 : FVec F S_ .f32 := constant S_ .f32 0x7F800000#32
  let main_v15 : FVec F S160x4096 .f32 := broadcastInDim S160x4096 ![] bcast_S_S160x4096 main_cst_4
  let main_v16 : IVec S160x4096 1 := cmpf .olt main_v14 main_v15
  fn_part1 (F := F) main_arg4 main_arg5 main_arg6 main_arg7 main_v13 main_v16
-- ==== Kernel.lean ====
abbrev S2x4096x2048 : Shape := ⟨3, ![2, 4096, 2048]⟩
abbrev S8192x2048 : Shape := ⟨2, ![8192, 2048]⟩
abbrev S4096x4096 : Shape := ⟨2, ![4096, 4096]⟩
abbrev S160x4096 : Shape := ⟨2, ![160, 4096]⟩
abbrev S4096x128 : Shape := ⟨2, ![4096, 128]⟩
abbrev S4096 : Shape := ⟨1, ![4096]⟩
abbrev S2048x4096 : Shape := ⟨2, ![2048, 4096]⟩
abbrev S4096x2048 : Shape := ⟨2, ![4096, 2048]⟩
abbrev S1x4096 : Shape := ⟨2, ![1, 4096]⟩
abbrev S8192x4096 : Shape := ⟨2, ![8192, 4096]⟩
abbrev S1024x512 : Shape := ⟨2, ![1024, 512]⟩
abbrev S512x512 : Shape := ⟨2, ![512, 512]⟩
abbrev S1024x1024 : Shape := ⟨2, ![1024, 1024]⟩
abbrev S512x1024 : Shape := ⟨2, ![512, 1024]⟩
abbrev S1x512 : Shape := ⟨2, ![1, 512]⟩

abbrev nBuf : Space → Nat
  | .hbm => 22
  | .vmem => 32
  | .smem => 0
  | _ => 0

abbrev bufTy : (tb : Table) → Fin (tcTables nBuf tb) → BufTy
  | .hbm, ⟨0, _⟩ => ⟨S2x4096x2048, .f32⟩
  | .hbm, ⟨1, _⟩ => ⟨S8192x2048, .f32⟩
  | .hbm, ⟨2, _⟩ => ⟨S4096x4096, .f32⟩
  | .hbm, ⟨3, _⟩ => ⟨S160x4096, .f32⟩
  | .hbm, ⟨4, _⟩ => ⟨S4096x128, .f32⟩
  | .hbm, ⟨5, _⟩ => ⟨S4096, .f32⟩
  | .hbm, ⟨6, _⟩ => ⟨S4096, .f32⟩
  | .hbm, ⟨7, _⟩ => ⟨S2048x4096, .f32⟩
  | .hbm, ⟨8, _⟩ => ⟨S8192x2048, .f32⟩
  | .hbm, ⟨9, _⟩ => ⟨S8192x2048, .bf16⟩
  | .hbm, ⟨10, _⟩ => ⟨S4096x2048, .f32⟩
  | .hbm, ⟨11, _⟩ => ⟨S4096x2048, .bf16⟩
  | .hbm, ⟨12, _⟩ => ⟨S4096x2048, .f32⟩
  | .hbm, ⟨13, _⟩ => ⟨S4096x2048, .bf16⟩
  | .hbm, ⟨14, _⟩ => ⟨S4096x4096, .bf16⟩
  | .hbm, ⟨15, _⟩ => ⟨S2048x4096, .bf16⟩
  | .hbm, ⟨16, _⟩ => ⟨S1x4096, .f32⟩
  | .hbm, ⟨17, _⟩ => ⟨S8192x4096, .bf16⟩
  | .hbm, ⟨18, _⟩ => ⟨S8192x4096, .bf16⟩
  | .hbm, ⟨19, _⟩ => ⟨S8192x4096, .bf16⟩
  | .hbm, ⟨20, _⟩ => ⟨S8192x2048, .f32⟩
  | .hbm, ⟨21, _⟩ => ⟨S2x4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | .local _ .vmem, ⟨7, _⟩ => ⟨S1024x512, .bf16⟩
  | .local _ .vmem, ⟨8, _⟩ => ⟨S1024x512, .bf16⟩
  | .local _ .vmem, ⟨9, _⟩ => ⟨S512x512, .bf16⟩
  | .local _ .vmem, ⟨10, _⟩ => ⟨S512x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .f32⟩
  | .local _ .vmem, ⟨14, _⟩ => ⟨S1024x1024, .bf16⟩
  | .local _ .vmem, ⟨15, _⟩ => ⟨S1024x1024, .bf16⟩
  | .local _ .vmem, ⟨16, _⟩ => ⟨S512x1024, .bf16⟩
  | .local _ .vmem, ⟨17, _⟩ => ⟨S512x1024, .bf16⟩
  | .local _ .vmem, ⟨18, _⟩ => ⟨S1x512, .f32⟩
  | .local _ .vmem, ⟨19, _⟩ => ⟨S1x512, .f32⟩
  | .local _ .vmem, ⟨20, _⟩ => ⟨S1024x512, .bf16⟩
  | .local _ .vmem, ⟨21, _⟩ => ⟨S1024x512, .bf16⟩
  | .local _ .vmem, ⟨22, _⟩ => ⟨S1024x512, .f32⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S512x1024, .bf16⟩
  | .local _ .vmem, ⟨28, _⟩ => ⟨S512x1024, .bf16⟩
  | .local _ .vmem, ⟨29, _⟩ => ⟨S1024x512, .f32⟩
  | .local _ .vmem, ⟨30, _⟩ => ⟨S1024x512, .f32⟩
  | .local _ .vmem, ⟨31, _⟩ => ⟨S1024x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 8, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 8, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![8, 4, 4], ![false, false, false]⟩

def k3_cond2 (i : grid3.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_10 : BitVec 32 := 0#32
  let v21 : BitVec 1 := Scalar.cmpi .ne v20 c0_i32_10
  v21

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

class Facts₀ : Prop where
  shapeCasts_S2x4096x2048_S8192x2048 : S2x4096x2048.ShapeCasts S8192x2048
  bitsLt_bf16_f32 : FTy.bits .bf16 < FTy.bits .f32
  slices_S8192x2048_S4096x2048_0_0 : S8192x2048.Slices ![0, 0] S4096x2048
  slices_S8192x2048_S4096x2048_4096_0 : S8192x2048.Slices ![4096, 0] S4096x2048
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S1024x512_S1024x512_0_0 : (Rect.unit (s := S1024x512) ![0, 0] S1024x512.size inb_S1024x512_S1024x512_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S8192x2048_S2x4096x2048 : S8192x2048.ShapeCasts S2x4096x2048
  dot_S1024x512_S512x512_S1024x512_1_1_0_0_n_n_wf : DotDims.WF S1024x512 S512x512 S1024x512 [1] [1] [0] [0] [] []
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x2048.size a
  hwx0_0 : ∀ i : grid0.Coords, EltTy.bits .bf16 = 32 ∨ (Rect.block (s := S8192x2048) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x2048.size a
  hwx0_1 : ∀ i : grid0.Coords, EltTy.bits .bf16 = 32 ∨ (Rect.block (s := S4096x2048) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x4096.size a
  hwx0_2 : ∀ i : grid0.Coords, EltTy.bits .bf16 = 32 ∨ (Rect.block (s := S8192x4096) S1024x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x2048.size a
  hwx1_0 : ∀ i : grid1.Coords, EltTy.bits .bf16 = 32 ∨ (Rect.block (s := S8192x2048) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x2048.size a
  hwx1_1 : ∀ i : grid1.Coords, EltTy.bits .bf16 = 32 ∨ (Rect.block (s := S4096x2048) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x4096.size a
  hwx1_2 : ∀ i : grid1.Coords, EltTy.bits .bf16 = 32 ∨ (Rect.block (s := S8192x4096) S1024x512.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x4096.size a
  hwx2_0 : ∀ i : grid2.Coords, EltTy.bits .bf16 = 32 ∨ (Rect.block (s := S8192x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S4096x4096.size a
  hwx2_1 : ∀ i : grid2.Coords, EltTy.bits .bf16 = 32 ∨ (Rect.block (s := S4096x4096) S512x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x4096.size a
  hwx2_2 : ∀ i : grid2.Coords, EltTy.bits .f32 = 32 ∨ (Rect.block (s := S1x4096) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S8192x4096.size a
  hwx2_3 : ∀ i : grid2.Coords, EltTy.bits .bf16 = 32 ∨ (Rect.block (s := S8192x4096) S1024x512.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x4096.size a
  hwx3_0 : ∀ i : grid3.Coords, EltTy.bits .bf16 = 32 ∨ (Rect.block (s := S8192x4096) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S8192x4096.size a
  hwx3_1 : ∀ i : grid3.Coords, EltTy.bits .bf16 = 32 ∨ (Rect.block (s := S8192x4096) S1024x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x1024.size a ≤ S2048x4096.size a
  hwx3_2 : ∀ i : grid3.Coords, EltTy.bits .bf16 = 32 ∨ (Rect.block (s := S2048x4096) S512x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x512.size a ≤ S8192x2048.size a
  hwx3_3 : ∀ i : grid3.Coords, EltTy.bits .f32 = 32 ∨ (Rect.block (s := S8192x2048) S1024x512.size (cc3_transform_3 i) (hinb3_3 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_v1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v9) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v11) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S512x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v12) S1024x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S2x4096x2048 : Shape := ⟨3, ![2, 4096, 2048]⟩
abbrev S8192x2048 : Shape := ⟨2, ![8192, 2048]⟩
abbrev S4096x4096 : Shape := ⟨2, ![4096, 4096]⟩
abbrev S160x4096 : Shape := ⟨2, ![160, 4096]⟩
abbrev S4096x128 : Shape := ⟨2, ![4096, 128]⟩
abbrev S4096 : Shape := ⟨1, ![4096]⟩
abbrev S2048x4096 : Shape := ⟨2, ![2048, 4096]⟩
abbrev S2x4096x8192 : Shape := ⟨3, ![2, 4096, 8192]⟩
abbrev S2x4096x4096 : Shape := ⟨3, ![2, 4096, 4096]⟩
abbrev S2x4096x160 : Shape := ⟨3, ![2, 4096, 160]⟩
abbrev S2x4096x128 : Shape := ⟨3, ![2, 4096, 128]⟩
abbrev S2x4096x16 : Shape := ⟨3, ![2, 4096, 16]⟩
abbrev S_ : Shape := ⟨0, ![]⟩
abbrev S1x1x4096 : Shape := ⟨3, ![1, 1, 4096]⟩

abbrev nBuf : Space → Nat
  | .hbm => 45
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S8192x2048, .f32⟩
  | .hbm, ⟨2, _⟩ => ⟨S4096x4096, .f32⟩
  | .hbm, ⟨3, _⟩ => ⟨S160x4096, .f32⟩
  | .hbm, ⟨4, _⟩ => ⟨S4096x128, .f32⟩
  | .hbm, ⟨5, _⟩ => ⟨S4096, .f32⟩
  | .hbm, ⟨6, _⟩ => ⟨S4096, .f32⟩
  | .hbm, ⟨7, _⟩ => ⟨S2048x4096, .f32⟩
  | .hbm, ⟨8, _⟩ => ⟨S2x4096x8192, .f32⟩
  | .hbm, ⟨9, _⟩ => ⟨S2x4096x4096, .f32⟩
  | .hbm, ⟨10, _⟩ => ⟨S2x4096x4096, .f32⟩
  | .hbm, ⟨11, _⟩ => ⟨S2x4096x4096, .f32⟩
  | .hbm, ⟨12, _⟩ => ⟨S2x4096x160, .f32⟩
  | .hbm, ⟨13, _⟩ => ⟨S2x4096x128, .f32⟩
  | .hbm, ⟨14, _⟩ => ⟨S2x4096x16, .f32⟩
  | .hbm, ⟨15, _⟩ => ⟨S2x4096x16, .f32⟩
  | .hbm, ⟨16, _⟩ => ⟨S2x4096x4096, .f32⟩
  | .hbm, ⟨17, _⟩ => ⟨S_, .f32⟩
  | .hbm, ⟨18, _⟩ => ⟨S2x4096x4096, .f32⟩
  | .hbm, ⟨19, _⟩ => ⟨S2x4096x4096, .f32⟩
  | .hbm, ⟨20, _⟩ => ⟨S2x4096x4096, .f32⟩
  | .hbm, ⟨21, _⟩ => ⟨S2x4096x4096, .f32⟩
  | .hbm, ⟨22, _⟩ => ⟨S2x4096x4096, .i1⟩
  | .hbm, ⟨23, _⟩ => ⟨S2x4096x4096, .f32⟩
  | .hbm, ⟨24, _⟩ => ⟨S2x4096x4096, .f32⟩
  | .hbm, ⟨25, _⟩ => ⟨S2x4096x4096, .f32⟩
  | .hbm, ⟨26, _⟩ => ⟨S2x4096x4096, .f32⟩
  | .hbm, ⟨27, _⟩ => ⟨S2x4096x4096, .f32⟩
  | .hbm, ⟨28, _⟩ => ⟨S2x4096x4096, .f32⟩
  | .hbm, ⟨29, _⟩ => ⟨S2x4096x4096, .f32⟩
  | .hbm, ⟨30, _⟩ => ⟨S2x4096x4096, .f32⟩
  | .hbm, ⟨31, _⟩ => ⟨S1x1x4096, .f32⟩
  | .hbm, ⟨32, _⟩ => ⟨S2x4096x4096, .f32⟩
  | .hbm, ⟨33, _⟩ => ⟨S2x4096x4096, .f32⟩
  | .hbm, ⟨34, _⟩ => ⟨S2x4096x4096, .f32⟩
  | .hbm, ⟨35, _⟩ => ⟨S2x4096x4096, .f32⟩
  | .hbm, ⟨36, _⟩ => ⟨S_, .f32⟩
  | .hbm, ⟨37, _⟩ => ⟨S2x4096x4096, .f32⟩
  | .hbm, ⟨38, _⟩ => ⟨S2x4096x4096, .f32⟩
  | .hbm, ⟨39, _⟩ => ⟨S_, .f32⟩
  | .hbm, ⟨40, _⟩ => ⟨S2x4096x4096, .f32⟩
  | .hbm, ⟨41, _⟩ => ⟨S2x4096x4096, .f32⟩
  | .hbm, ⟨42, _⟩ => ⟨S2x4096x4096, .f32⟩
  | .hbm, ⟨43, _⟩ => ⟨S2x4096x4096, .f32⟩
  | .hbm, ⟨44, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩

abbrev nD : Nat := 1
abbrev τ : Topo := Topo.v7x

variable {F : FTy → Type} [FloatOps F]

class Facts₀ : Prop where
  slices_S2x4096x8192_S2x4096x4096_0_0_0 : S2x4096x8192.Slices ![0, 0, 0] S2x4096x4096
  slices_S2x4096x8192_S2x4096x4096_0_0_4096 : S2x4096x8192.Slices ![0, 0, 4096] S2x4096x4096
  slices_S2x4096x160_S2x4096x128_0_0_0 : S2x4096x160.Slices ![0, 0, 0] S2x4096x128
  slices_S2x4096x160_S2x4096x16_0_0_128 : S2x4096x160.Slices ![0, 0, 128] S2x4096x16
  slices_S2x4096x160_S2x4096x16_0_0_144 : S2x4096x160.Slices ![0, 0, 144] S2x4096x16
  bcast_S_S2x4096x4096 : S_.BroadcastsInDim S2x4096x4096 (![] : Fin 0 → Fin S2x4096x4096.rank)
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  dot_S2x4096x2048_S8192x2048_S2x4096x8192_2_1_01_0_n_n_wf : DotDims.WF S2x4096x2048 S8192x2048 S2x4096x8192 [2] [1] [0, 1] [0] [] []
  dot_S2x4096x4096_S4096x4096_S2x4096x4096_2_1_01_0_n_n_wf : DotDims.WF S2x4096x4096 S4096x4096 S2x4096x4096 [2] [1] [0, 1] [0] [] []
  dot_S2x4096x4096_S160x4096_S2x4096x160_2_1_01_0_n_n_wf : DotDims.WF S2x4096x4096 S160x4096 S2x4096x160 [2] [1] [0, 1] [0] [] []
  dot_S2x4096x128_S4096x128_S2x4096x4096_2_1_01_0_n_n_wf : DotDims.WF S2x4096x128 S4096x128 S2x4096x4096 [2] [1] [0, 1] [0] [] []
  dot_S2x4096x4096_S2048x4096_S2x4096x2048_2_1_01_0_n_n_wf : DotDims.WF S2x4096x4096 S2048x4096 S2x4096x2048 [2] [1] [0, 1] [0] [] []

variable [Facts₀]

def dot_S2x4096x2048_S8192x2048_S2x4096x8192_2_1_01_0_n_n : DotDims S2x4096x2048 S8192x2048 S2x4096x8192 where
  lhsContracting := [2]
  rhsContracting := [1]
  lhsNonContracting := [0, 1]
  rhsNonContracting := [0]
  lhsBatch := []
  rhsBatch := []
  wf := dot_S2x4096x2048_S8192x2048_S2x4096x8192_2_1_01_0_n_n_wf
def dot_S2x4096x4096_S4096x4096_S2x4096x4096_2_1_01_0_n_n : DotDims S2x4096x4096 S4096x4096 S2x4096x4096 where
  lhsContracting := [2]
  rhsContracting := [1]
  lhsNonContracting := [0, 1]
  rhsNonContracting := [0]
  lhsBatch := []
  rhsBatch := []
  wf := dot_S2x4096x4096_S4096x4096_S2x4096x4096_2_1_01_0_n_n_wf
def dot_S2x4096x4096_S160x4096_S2x4096x160_2_1_01_0_n_n : DotDims S2x4096x4096 S160x4096 S2x4096x160 where
  lhsContracting := [2]
  rhsContracting := [1]
  lhsNonContracting := [0, 1]
  rhsNonContracting := [0]
  lhsBatch := []
  rhsBatch := []
  wf := dot_S2x4096x4096_S160x4096_S2x4096x160_2_1_01_0_n_n_wf
def dot_S2x4096x128_S4096x128_S2x4096x4096_2_1_01_0_n_n : DotDims S2x4096x128 S4096x128 S2x4096x4096 where
  lhsContracting := [2]
  rhsContracting := [1]
  lhsNonContracting := [0, 1]
  rhsNonContracting := [0]
  lhsBatch := []
  rhsBatch := []
  wf := dot_S2x4096x128_S4096x128_S2x4096x4096_2_1_01_0_n_n_wf
def dot_S2x4096x4096_S2048x4096_S2x4096x2048_2_1_01_0_n_n : DotDims S2x4096x4096 S2048x4096 S2x4096x2048 where
  lhsContracting := [2]
  rhsContracting := [1]
  lhsNonContracting := [0, 1]
  rhsNonContracting := [0]
  lhsBatch := []
  rhsBatch := []
  wf := dot_S2x4096x4096_S2048x4096_S2x4096x2048_2_1_01_0_n_n_wf

class Facts : Prop extends Facts₀ where

variable [Facts]
-- ==== Proof.KI.R0Runs.lean ====
import proofs.«146748_j31610959298744_1_alg».proof.Proof.Gen.KernelIdeal.Launch
import proofs.«146748_j31610959298744_1_alg».proof.Proof.Gen.KernelIdeal.Skeleton
import proofs.«146748_j31610959298744_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The rectangle of window w's array that point t works on. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-- The body's first test: the point is the first step of its round. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- Its second test: the point is the last step of its round. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel

theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel

theorem liveAt0_2 : ∀ t : Fin cfg0.N, cond0_1 (grid0.coords t) → cfg0.idle 2 (grid0.coords t) = false := by decide +kernel

abbrev VO0 : View sig .tc .vmem S1024x512 .bf16 := (Memref.whole cc0_stg2_0 : Memref sig .tc .vmem S1024x512 .bf16).view
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .bf16 := win0_2.stage (cfg0.slots t 2)
abbrev hs0_2 (t : Fin cfg0.N) : (ms0_2 t).IsWhole := hstage0_2 ((cfg0.slots t 2).cast nbuf0_2)

abbrev scM0 : Memref sig .tc .vmem S1024x512 .f32 := Memref.whole cc0_scratch0
abbrev VS0 : View sig .tc .vmem S1024x512 .f32 := scM0.view

theorem scopedRest0_acc (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f))
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

abbrev Rest0 (c : Dev nD) : sProp 𝕄 :=
  Pipeline.scopedRestBut (Ix := Unit) (Name := ℕ) (U := UR sig nD τ) (Lvl := ℕ) (Val := Elt F) spec0 c [cc0_scratch0]

/-- The entry invariant with the running sum's buffer named. -/
theorem PhiA0_eq (c : Dev nD) :
    (Pipeline.ΦA spec0 c : sProp 𝕄) = iprop(iprop((∃ d, owns (c : Thread nD τ) scM0 fullShare d) ∗ Rest0 (F := F) c) ∗ (∃ r, prngReg c r)) := by
  unfold Pipeline.ΦA; rw [scopedRest0_acc]; simp only [scM0, owns_whole]; try rfl

end Cert.KernelIdeal.Regs

end
-- ==== Proof.KI.R0Run.lean ====
import proofs.«146748_j31610959298744_1_alg».proof.Proof.KI.R0Runs

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole)

set_option maxHeartbeats 4000000 in
/-- The body run in its three control cases (first, middle, last step of a round); each run yields the lists of pieces its stores wrote, and the triple that has them as its result. -/
noncomputable def kernelRun0_A (hc0 : cond0_0 i) (hc1 : ¬cond0_1 i)
    (x0 : Vec F S1024x512 .bf16) (x1 : Vec F S512x512 .bf16) :
    Σ' (LO : List (View.Piece (Elt F) S1024x512 .bf16)), { LS : List (View.Piece (Elt F) S1024x512 .f32) //
      ∀ (xi : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__proj_kernel i arg3 harg3 arg4 harg4 arg5 harg5 arg6 harg6) K } := by
  refine ⟨[], ?_, fun xi E K => ?run⟩
  case run =>
    simp only [cc0__proj_kernel_eq_skeleton]; unfold cc0__proj_kernel_skel
    unfold owns
    iintro ⟨⟨%f0, %hf0, H0⟩, ⟨%f1, %hf1, H1⟩, ⟨%fO, %hfO, HO⟩, ⟨%dS, %fS, -, HS⟩, Hk⟩
    obtain rfl := harg3.eq_unread hf0; obtain rfl := harg4.eq_unread hf1; obtain rfl := harg5.eq_unread hfO
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [HO]
    · iexists _; isplitr; · ipureintro; exact harg5.read_unread _
      iexact HO
    iexists _; iexact HS

set_option maxHeartbeats 4000000 in
noncomputable def kernelRun0_B (hc0 : ¬cond0_0 i) (hc1 : ¬cond0_1 i)
    (x0 : Vec F S1024x512 .bf16) (x1 : Vec F S512x512 .bf16) (xs : Vec F S1024x512 .f32) :
    Σ' (LO : List (View.Piece (Elt F) S1024x512 .bf16)), { LS : List (View.Piece (Elt F) S1024x512 .f32) //
      ∀ (xi : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__proj_kernel i arg3 harg3 arg4 harg4 arg5 harg5 arg6 harg6) K } := by
  refine ⟨[], ?_, fun xi E K => ?run⟩
  case run =>
    simp only [cc0__proj_kernel_eq_skeleton]; unfold cc0__proj_kernel_skel
    unfold owns
    iintro ⟨⟨%f0, %hf0, H0⟩, ⟨%f1, %hf1, H1⟩, ⟨%fO, %hfO, HO⟩, ⟨%fS, %hfS, HS⟩, Hk⟩
    obtain rfl := harg3.eq_unread hf0; obtain rfl := harg4.eq_unread hf1; obtain rfl := harg5.eq_unread hfO; obtain rfl := harg6.eq_unread hfS
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [HO]
    · iexists _; isplitr; · ipureintro; exact harg5.read_unread _
      iexact HO
    iexists _; iexact HS

set_option maxHeartbeats 4000000 in
noncomputable def kernelRun0_C (hc0 : ¬cond0_0 i) (hc1 : cond0_1 i)
    (x0 : Vec F S1024x512 .bf16) (x1 : Vec F S512x512 .bf16) (xs : Vec F S1024x512 .f32) :
    Σ' (LO : List (View.Piece (Elt F) S1024x512 .bf16)), { LS : List (View.Piece (Elt F) S1024x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__proj_kernel i arg3 harg3 arg4 harg4 arg5 harg5 arg6 harg6) K } := by
  refine ⟨?_, ?_, fun E K => ?run⟩
  case run =>
    simp only [cc0__proj_kernel_eq_skeleton]; unfold cc0__proj_kernel_skel
    unfold owns
    iintro ⟨⟨%f0, %hf0, H0⟩, ⟨%f1, %hf1, H1⟩, ⟨%dO, %fO, -, HO⟩, ⟨%fS, %hfS, HS⟩, Hk⟩
    obtain rfl := harg3.eq_unread hf0; obtain rfl := harg4.eq_unread hf1; obtain rfl := harg6.eq_unread hfS
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [HO]; · iexists _; iexact HO
    iexists _; iexact HS

end

end Cert.KernelIdeal.Regs

end
-- ==== Proof.Steps.lean ====
import Mathlib.Data.Nat.Notation

namespace Cert.Steps

variable {N : Nat} {O S : Type}
  (fA : (t : Fin N) → t.val % 4 = 0 → ¬t.val % 4 = 3 → O × S)
  (fB : (t : Fin N) → ¬t.val % 4 = 0 → ¬t.val % 4 = 3 → S → O × S)
  (fC : (t : Fin N) → ¬t.val % 4 = 0 → t.val % 4 = 3 → S → O × S)

/-- What is held after point n of a run of four-step rounds: the first step of a round starts afresh, a middle and a
    last step start from the second component of what the point before left. -/
def outsAt : (n : Nat) → n < N → O × S
  | 0, hn => fA ⟨0, hn⟩ (Nat.zero_mod _) (by show ¬0 % 4 = 3; decide)
  | n + 1, hn =>
    if h0 : (n + 1) % 4 = 0 then fA ⟨n + 1, hn⟩ h0 (by show ¬(n + 1) % 4 = 3; omega)
    else if h1 : (n + 1) % 4 = 3 then fC ⟨n + 1, hn⟩ h0 h1 (outsAt n (Nat.lt_of_succ_lt hn)).2
    else fB ⟨n + 1, hn⟩ h0 h1 (outsAt n (Nat.lt_of_succ_lt hn)).2

theorem outsAt_A (t : Fin N) (h0 : t.val % 4 = 0) (h1 : ¬t.val % 4 = 3) : outsAt fA fB fC t.val t.isLt = fA t h0 h1 := by
  obtain ⟨n, hn⟩ := t
  cases n with
  | zero => rfl
  | succ n => exact dif_pos h0

theorem outsAt_B (t : Fin N) (h0 : ¬t.val % 4 = 0) (h1 : ¬t.val % 4 = 3) :
    outsAt fA fB fC t.val t.isLt = fB t h0 h1 (outsAt fA fB fC (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h1)

theorem outsAt_C (t : Fin N) (h0 : ¬t.val % 4 = 0) (h1 : t.val % 4 = 3) :
    outsAt fA fB fC t.val t.isLt = fC t h0 h1 (outsAt fA fB fC (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h1)

end Cert.Steps
-- ==== Proof.KI.R0Data.lean ====
import proofs.«146748_j31610959298744_1_alg».proof.Proof.KI.R0Run
import proofs.«146748_j31610959298744_1_alg».proof.Proof.Steps

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole)

def out0_A (hc0 : cond0_0 i) (hc1 : ¬cond0_1 i)
    (x0 : Vec F S1024x512 .bf16) (x1 : Vec F S512x512 .bf16) : Vec F S1024x512 .bf16 :=
  VO0.read (Elt F) (VO0.writes (Elt F) VO0.junk (kernelRun0_A c i arg3 harg3 arg4 harg4 arg5 harg5 arg6 harg6 hc0 hc1 x0 x1).1)

theorem scover0_A (hc0 : cond0_0 i) (hc1 : ¬cond0_1 i)
    (x0 : Vec F S1024x512 .bf16) (x1 : Vec F S512x512 .bf16) (y : S1024x512.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x512.size (by sl_kernel_rfl) y

def sout0_A (hc0 : cond0_0 i) (hc1 : ¬cond0_1 i)
    (x0 : Vec F S1024x512 .bf16) (x1 : Vec F S512x512 .bf16) : Vec F S1024x512 .f32 :=
  VS0.read (Elt F) (VS0.writes (Elt F) VS0.junk (kernelRun0_A c i arg3 harg3 arg4 harg4 arg5 harg5 arg6 harg6 hc0 hc1 x0 x1).2.1)

def out0_B (hc0 : ¬cond0_0 i) (hc1 : ¬cond0_1 i)
    (x0 : Vec F S1024x512 .bf16) (x1 : Vec F S512x512 .bf16) (xs : Vec F S1024x512 .f32) : Vec F S1024x512 .bf16 :=
  VO0.read (Elt F) (VO0.writes (Elt F) VO0.junk (kernelRun0_B c i arg3 harg3 arg4 harg4 arg5 harg5 arg6 harg6 hc0 hc1 x0 x1 xs).1)

theorem scover0_B (hc0 : ¬cond0_0 i) (hc1 : ¬cond0_1 i)
    (x0 : Vec F S1024x512 .bf16) (x1 : Vec F S512x512 .bf16) (xs : Vec F S1024x512 .f32) (y : S1024x512.Idx) :
    ∃ pc ∈ (kernelRun0_B c i arg3 harg3 arg4 harg4 arg5 harg5 arg6 harg6 hc0 hc1 x0 x1 xs).2.1, y ∈ pc.1.set :=
  View.cover_of_tiledL (kernelRun0_B c i arg3 harg3 arg4 harg4 arg5 harg5 arg6 harg6 hc0 hc1 x0 x1 xs).2.1 S1024x512.size (by sl_kernel_rfl) y

def sout0_B (hc0 : ¬cond0_0 i) (hc1 : ¬cond0_1 i)
    (x0 : Vec F S1024x512 .bf16) (x1 : Vec F S512x512 .bf16) (xs : Vec F S1024x512 .f32) : Vec F S1024x512 .f32 :=
  VS0.read (Elt F) (VS0.writes (Elt F) VS0.junk (kernelRun0_B c i arg3 harg3 arg4 harg4 arg5 harg5 arg6 harg6 hc0 hc1 x0 x1 xs).2.1)

def out0_C (hc0 : ¬cond0_0 i) (hc1 : cond0_1 i)
    (x0 : Vec F S1024x512 .bf16) (x1 : Vec F S512x512 .bf16) (xs : Vec F S1024x512 .f32) : Vec F S1024x512 .bf16 :=
  VO0.read (Elt F) (VO0.writes (Elt F) VO0.junk (kernelRun0_C c i arg3 harg3 arg4 harg4 arg5 harg5 arg6 harg6 hc0 hc1 x0 x1 xs).1)

theorem scover0_C (hc0 : ¬cond0_0 i) (hc1 : cond0_1 i)
    (x0 : Vec F S1024x512 .bf16) (x1 : Vec F S512x512 .bf16) (xs : Vec F S1024x512 .f32) (y : S1024x512.Idx) :
    ∃ pc ∈ (kernelRun0_C c i arg3 harg3 arg4 harg4 arg5 harg5 arg6 harg6 hc0 hc1 x0 x1 xs).2.1, y ∈ pc.1.set :=
  View.cover_of_tiledL (kernelRun0_C c i arg3 harg3 arg4 harg4 arg5 harg5 arg6 harg6 hc0 hc1 x0 x1 xs).2.1 S1024x512.size (by sl_kernel_rfl) y

def sout0_C (hc0 : ¬cond0_0 i) (hc1 : cond0_1 i)
    (x0 : Vec F S1024x512 .bf16) (x1 : Vec F S512x512 .bf16) (xs : Vec F S1024x512 .f32) : Vec F S1024x512 .f32 :=
  VS0.read (Elt F) (VS0.writes (Elt F) VS0.junk (kernelRun0_C c i arg3 harg3 arg4 harg4 arg5 harg5 arg6 harg6 hc0 hc1 x0 x1 xs).2.1)

theorem cover0_C (hc0 : ¬cond0_0 i) (hc1 : cond0_1 i)
    (x0 : Vec F S1024x512 .bf16) (x1 : Vec F S512x512 .bf16) (xs : Vec F S1024x512 .f32) (y : S1024x512.Idx) :
    ∃ pc ∈ (kernelRun0_C c i arg3 harg3 arg4 harg4 arg5 harg5 arg6 harg6 hc0 hc1 x0 x1 xs).1, y ∈ pc.1.set :=
  View.cover_of_tiledL (kernelRun0_C c i arg3 harg3 arg4 harg4 arg5 harg5 arg6 harg6 hc0 hc1 x0 x1 xs).1 S1024x512.size (by sl_kernel_rfl) y

end

section
variable (V : (c : Dev nD) → (b : Ref sig .tc) → Buf (Elt F) ((c : Thread nD τ).loc b))

/-- A first step of a round at point t: (what its run leaves in the output block, what it leaves in the running sum). -/
abbrev ptA0 (c : Dev nD) (t : Fin cfg0.N) (h0 : t.val % 4 = 0) (h1 : ¬t.val % 4 = 3) : Vec F S1024x512 .bf16 × Vec F S1024x512 .f32 :=
  (out0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t), sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t))

/-- A middle step, the running sum found at xs. -/
abbrev ptB0 (c : Dev nD) (t : Fin cfg0.N) (h0 : ¬t.val % 4 = 0) (h1 : ¬t.val % 4 = 3) (xs : Vec F S1024x512 .f32) : Vec F S1024x512 .bf16 × Vec F S1024x512 .f32 :=
  (out0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) xs, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) xs)

/-- A last step, the running sum found at xs. -/
abbrev ptC0 (c : Dev nD) (t : Fin cfg0.N) (h0 : ¬t.val % 4 = 0) (h1 : t.val % 4 = 3) (xs : Vec F S1024x512 .f32) : Vec F S1024x512 .bf16 × Vec F S1024x512 .f32 :=
  (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) xs, sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) xs)

/-- After point n: (output block, running sum); n mod 4 says which step of its round n is. -/
def outsAt0 (c : Dev nD) : (n : ℕ) → n < cfg0.N → Vec F S1024x512 .bf16 × Vec F S1024x512 .f32 :=
  Cert.Steps.outsAt (ptA0 V c) (ptB0 V c) (ptC0 V c)

theorem outsAt0_A (c : Dev nD) (t : Fin cfg0.N) (h0 : t.val % 4 = 0) (h1 : ¬t.val % 4 = 3) :
    outsAt0 V c t.val t.isLt = ptA0 V c t h0 h1 := Cert.Steps.outsAt_A _ _ _ t h0 h1

theorem outsAt0_B (c : Dev nD) (t : Fin cfg0.N) (h0 : ¬t.val % 4 = 0) (h1 : ¬t.val % 4 = 3) :
    outsAt0 V c t.val t.isLt = ptB0 V c t h0 h1 (outsAt0 V c (t.val - 1) (Nat.lt_of_le_of_lt (Nat.sub_le _ _) t.isLt)).2 := Cert.Steps.outsAt_B _ _ _ t h0 h1

theorem outsAt0_C (c : Dev nD) (t : Fin cfg0.N) (h0 : ¬t.val % 4 = 0) (h1 : t.val % 4 = 3) :
    outsAt0 V c t.val t.isLt = ptC0 V c t h0 h1 (outsAt0 V c (t.val - 1) (Nat.lt_of_le_of_lt (Nat.sub_le _ _) t.isLt)).2 := Cert.Steps.outsAt_C _ _ _ t h0 h1

/-- The invariant before position n: the entry invariant at 0, afterwards the running sum owned at what point n - 1 left. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ Rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Rest0 (F := F) c) ∗ (∃ r, prngReg c r)) := by
  cases n with
  | zero => exact absurd rfl hz
  | succ n => rfl

/-- The invariant at any position is at least the one the region is entered with: the running sum's contents are forgotten. -/
theorem PhiS0_weaken (c : Dev nD) (n : ℕ) (h : n ≤ cfg0.N) : PhiS0 V c n h ⊢ Pipeline.ΦA spec0 c := by
  cases n with
  | zero => exact .rfl
  | succ n =>
    rw [PhiS0_succ, PhiA0_eq]
    iintro ⟨⟨HS, Hrb⟩, Hg⟩
    iframe Hrb Hg
    iexists _; iexact HS

/-- The region's data: inputs read as they were found, the output block after point t the first component above. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- One point's body, by the step n mod 4 selects: the running sum goes in at what the point before left and comes out at this point's value; only a last step writes the output block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
          unfold Dat.leavesExact; rw [liveAt0_0 t], after0_0]
  rw [show (dat0 V c).leavesExact 1 t = owns (c : Thread nD τ) (ms0_1 t) fullShare ((dat0 V c).after 1 t) from by
          unfold Dat.leavesExact; rw [liveAt0_1 t], after0_1]
  by_cases h0 : t.val % 4 = 0
  · by_cases h1 : t.val % 4 = 3
    · exfalso; omega
    · rw [Dat.leavesExact_idle (dat0 V c) 2 t (idleAt0_2 t (fun h => h1 ((hcond0_1 t).mp h))) (noFlush0_2 t (fun h => h1 ((hcond0_1 t).mp h)))]
      rw [outsAt0_A V c t h0 h1]
      unfold ptA0 sout0_A; (try dsimp only)
      rw [PhiS0_castSucc V c t]
      have hw := PhiS0_weaken V c t.val (Nat.le_of_lt t.isLt)
      rw [PhiA0_eq] at hw
      iintro ⟨HΦ, Ho, ⟨%d0, H0⟩, ⟨%d1, H1⟩, ⟨%d2, H2⟩⟩
      ihave HΦ := hw $$ HΦ
      icases HΦ with ⟨⟨HS, Hrb⟩, Hg⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      iframe H0 H1 H2 HS
      iintro ⟨H0, H1, H2, ⟨%eS, HS⟩⟩
      iframe Hrb Hg Ho H0 H1
      isplitl [HS]
      · unfold owns; iexists _; isplitr
        swap; · iexact HS
        ipureintro; exact View.read_writes_of_cover _ _ _ _ _ (scover0_A c _ _ _ _ _ _ _ _ _ _ _ _ _)
      iexists _; iexact H2
  · have hz : t.val ≠ 0 := fun h => h0 (by rw [h])
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold ptC0 out0_C sout0_C; (try dsimp only)
      rw [PhiS0_castSucc V c t, PhiS0_pos V c _ _ hz]
      iintro ⟨⟨⟨HS, Hrb⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      iframe H0 H1 HS
      isplitl [H2]; · iexists _; iexact H2
      iintro ⟨H0, H1, ⟨%eO, H2⟩, ⟨%eS, HS⟩⟩
      iframe Hrb Hg Ho H0 H1
      isplitl [HS]
      · unfold owns; iexists _; isplitr
        swap; · iexact HS
        ipureintro; exact View.read_writes_of_cover _ _ _ _ _ (scover0_C c _ _ _ _ _ _ _ _ _ _ _ _ _ _)
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold ptB0 sout0_B; (try dsimp only)
      rw [PhiS0_castSucc V c t, PhiS0_pos V c _ _ hz]
      iintro ⟨⟨⟨HS, Hrb⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      iframe H0 H1 H2 HS
      iintro ⟨H0, H1, H2, ⟨%eS, HS⟩⟩
      iframe Hrb Hg Ho H0 H1
      isplitl [HS]
      · unfold owns; iexists _; isplitr
        swap; · iexact HS
        ipureintro; exact View.read_writes_of_cover _ _ _ _ _ (scover0_B c _ _ _ _ _ _ _ _ _ _ _ _ _ _)
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c :=
  PhiS0_weaken V c (Fin.last cfg0.N).val (Nat.le_of_lt_succ (Fin.last cfg0.N).isLt)

end

end Cert.KernelIdeal.Regs

end
-- ==== Proof.KI.R1Runs.lean ====
import proofs.«146748_j31610959298744_1_alg».proof.Proof.Gen.KernelIdeal.Launch
import proofs.«146748_j31610959298744_1_alg».proof.Proof.Gen.KernelIdeal.Skeleton
import proofs.«146748_j31610959298744_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The rectangle of window w's array that point t works on. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-- The body's first test: the point is the first step of its round. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- Its second test: the point is the last step of its round. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel

theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel

theorem liveAt1_2 : ∀ t : Fin cfg1.N, cond1_1 (grid1.coords t) → cfg1.idle 2 (grid1.coords t) = false := by decide +kernel

abbrev VO1 : View sig .tc .vmem S1024x512 .bf16 := (Memref.whole cc1_stg2_0 : Memref sig .tc .vmem S1024x512 .bf16).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .bf16 := win1_2.stage (cfg1.slots t 2)
abbrev hs1_2 (t : Fin cfg1.N) : (ms1_2 t).IsWhole := hstage1_2 ((cfg1.slots t 2).cast nbuf1_2)

abbrev scM1 : Memref sig .tc .vmem S1024x512 .f32 := Memref.whole cc1_scratch0
abbrev VS1 : View sig .tc .vmem S1024x512 .f32 := scM1.view

theorem scopedRest1_acc (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

abbrev Rest1 (c : Dev nD) : sProp 𝕄 :=
  Pipeline.scopedRestBut (Ix := Unit) (Name := ℕ) (U := UR sig nD τ) (Lvl := ℕ) (Val := Elt F) spec1 c [cc1_scratch0]

/-- The entry invariant with the running sum's buffer named. -/
theorem PhiA1_eq (c : Dev nD) :
    (Pipeline.ΦA spec1 c : sProp 𝕄) = iprop(iprop((∃ d, owns (c : Thread nD τ) scM1 fullShare d) ∗ Rest1 (F := F) c) ∗ (∃ r, prngReg c r)) := by
  unfold Pipeline.ΦA; rw [scopedRest1_acc]; simp only [scM1, owns_whole]; try rfl

end Cert.KernelIdeal.Regs

end
-- ==== Proof.KI.R1Run.lean ====
import proofs.«146748_j31610959298744_1_alg».proof.Proof.KI.R1Runs

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid1.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole)

set_option maxHeartbeats 4000000 in
/-- The body run in its three control cases (first, middle, last step of a round); each run yields the lists of pieces its stores wrote, and the triple that has them as its result. -/
noncomputable def kernelRun1_A (hc0 : cond1_0 i) (hc1 : ¬cond1_1 i)
    (x0 : Vec F S1024x512 .bf16) (x1 : Vec F S512x512 .bf16) :
    Σ' (LO : List (View.Piece (Elt F) S1024x512 .bf16)), { LS : List (View.Piece (Elt F) S1024x512 .f32) //
      ∀ (xi : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__proj_kernel i arg3 harg3 arg4 harg4 arg5 harg5 arg6 harg6) K } := by
  refine ⟨[], ?_, fun xi E K => ?run⟩
  case run =>
    simp only [cc1__proj_kernel_eq_skeleton]; unfold cc1__proj_kernel_skel
    unfold owns
    iintro ⟨⟨%f0, %hf0, H0⟩, ⟨%f1, %hf1, H1⟩, ⟨%fO, %hfO, HO⟩, ⟨%dS, %fS, -, HS⟩, Hk⟩
    obtain rfl := harg3.eq_unread hf0; obtain rfl := harg4.eq_unread hf1; obtain rfl := harg5.eq_unread hfO
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [HO]
    · iexists _; isplitr; · ipureintro; exact harg5.read_unread _
      iexact HO
    iexists _; iexact HS

set_option maxHeartbeats 4000000 in
noncomputable def kernelRun1_B (hc0 : ¬cond1_0 i) (hc1 : ¬cond1_1 i)
    (x0 : Vec F S1024x512 .bf16) (x1 : Vec F S512x512 .bf16) (xs : Vec F S1024x512 .f32) :
    Σ' (LO : List (View.Piece (Elt F) S1024x512 .bf16)), { LS : List (View.Piece (Elt F) S1024x512 .f32) //
      ∀ (xi : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__proj_kernel i arg3 harg3 arg4 harg4 arg5 harg5 arg6 harg6) K } := by
  refine ⟨[], ?_, fun xi E K => ?run⟩
  case run =>
    simp only [cc1__proj_kernel_eq_skeleton]; unfold cc1__proj_kernel_skel
    unfold owns
    iintro ⟨⟨%f0, %hf0, H0⟩, ⟨%f1, %hf1, H1⟩, ⟨%fO, %hfO, HO⟩, ⟨%fS, %hfS, HS⟩, Hk⟩
    obtain rfl := harg3.eq_unread hf0; obtain rfl := harg4.eq_unread hf1; obtain rfl := harg5.eq_unread hfO; obtain rfl := harg6.eq_unread hfS
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [HO]
    · iexists _; isplitr; · ipureintro; exact harg5.read_unread _
      iexact HO
    iexists _; iexact HS

set_option maxHeartbeats 4000000 in
noncomputable def kernelRun1_C (hc0 : ¬cond1_0 i) (hc1 : cond1_1 i)
    (x0 : Vec F S1024x512 .bf16) (x1 : Vec F S512x512 .bf16) (xs : Vec F S1024x512 .f32) :
    Σ' (LO : List (View.Piece (Elt F) S1024x512 .bf16)), { LS : List (View.Piece (Elt F) S1024x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1__proj_kernel i arg3 harg3 arg4 harg4 arg5 harg5 arg6 harg6) K } := by
  refine ⟨?_, ?_, fun E K => ?run⟩
  case run =>
    simp only [cc1__proj_kernel_eq_skeleton]; unfold cc1__proj_kernel_skel
    unfold owns
    iintro ⟨⟨%f0, %hf0, H0⟩, ⟨%f1, %hf1, H1⟩, ⟨%dO, %fO, -, HO⟩, ⟨%fS, %hfS, HS⟩, Hk⟩
    obtain rfl := harg3.eq_unread hf0; obtain rfl := harg4.eq_unread hf1; obtain rfl := harg6.eq_unread hfS
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [HO]; · iexists _; iexact HO
    iexists _; iexact HS

end

end Cert.KernelIdeal.Regs

end
-- ==== Proof.KI.R1Data.lean ====
import proofs.«146748_j31610959298744_1_alg».proof.Proof.KI.R1Run
import proofs.«146748_j31610959298744_1_alg».proof.Proof.Steps

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid1.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole)

def out1_A (hc0 : cond1_0 i) (hc1 : ¬cond1_1 i)
    (x0 : Vec F S1024x512 .bf16) (x1 : Vec F S512x512 .bf16) : Vec F S1024x512 .bf16 :=
  VO1.read (Elt F) (VO1.writes (Elt F) VO1.junk (kernelRun1_A c i arg3 harg3 arg4 harg4 arg5 harg5 arg6 harg6 hc0 hc1 x0 x1).1)

theorem scover1_A (hc0 : cond1_0 i) (hc1 : ¬cond1_1 i)
    (x0 : Vec F S1024x512 .bf16) (x1 : Vec F S512x512 .bf16) (y : S1024x512.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x512.size (by sl_kernel_rfl) y

def sout1_A (hc0 : cond1_0 i) (hc1 : ¬cond1_1 i)
    (x0 : Vec F S1024x512 .bf16) (x1 : Vec F S512x512 .bf16) : Vec F S1024x512 .f32 :=
  VS1.read (Elt F) (VS1.writes (Elt F) VS1.junk (kernelRun1_A c i arg3 harg3 arg4 harg4 arg5 harg5 arg6 harg6 hc0 hc1 x0 x1).2.1)

def out1_B (hc0 : ¬cond1_0 i) (hc1 : ¬cond1_1 i)
    (x0 : Vec F S1024x512 .bf16) (x1 : Vec F S512x512 .bf16) (xs : Vec F S1024x512 .f32) : Vec F S1024x512 .bf16 :=
  VO1.read (Elt F) (VO1.writes (Elt F) VO1.junk (kernelRun1_B c i arg3 harg3 arg4 harg4 arg5 harg5 arg6 harg6 hc0 hc1 x0 x1 xs).1)

theorem scover1_B (hc0 : ¬cond1_0 i) (hc1 : ¬cond1_1 i)
    (x0 : Vec F S1024x512 .bf16) (x1 : Vec F S512x512 .bf16) (xs : Vec F S1024x512 .f32) (y : S1024x512.Idx) :
    ∃ pc ∈ (kernelRun1_B c i arg3 harg3 arg4 harg4 arg5 harg5 arg6 harg6 hc0 hc1 x0 x1 xs).2.1, y ∈ pc.1.set :=
  View.cover_of_tiledL (kernelRun1_B c i arg3 harg3 arg4 harg4 arg5 harg5 arg6 harg6 hc0 hc1 x0 x1 xs).2.1 S1024x512.size (by sl_kernel_rfl) y

def sout1_B (hc0 : ¬cond1_0 i) (hc1 : ¬cond1_1 i)
    (x0 : Vec F S1024x512 .bf16) (x1 : Vec F S512x512 .bf16) (xs : Vec F S1024x512 .f32) : Vec F S1024x512 .f32 :=
  VS1.read (Elt F) (VS1.writes (Elt F) VS1.junk (kernelRun1_B c i arg3 harg3 arg4 harg4 arg5 harg5 arg6 harg6 hc0 hc1 x0 x1 xs).2.1)

def out1_C (hc0 : ¬cond1_0 i) (hc1 : cond1_1 i)
    (x0 : Vec F S1024x512 .bf16) (x1 : Vec F S512x512 .bf16) (xs : Vec F S1024x512 .f32) : Vec F S1024x512 .bf16 :=
  VO1.read (Elt F) (VO1.writes (Elt F) VO1.junk (kernelRun1_C c i arg3 harg3 arg4 harg4 arg5 harg5 arg6 harg6 hc0 hc1 x0 x1 xs).1)

theorem scover1_C (hc0 : ¬cond1_0 i) (hc1 : cond1_1 i)
    (x0 : Vec F S1024x512 .bf16) (x1 : Vec F S512x512 .bf16) (xs : Vec F S1024x512 .f32) (y : S1024x512.Idx) :
    ∃ pc ∈ (kernelRun1_C c i arg3 harg3 arg4 harg4 arg5 harg5 arg6 harg6 hc0 hc1 x0 x1 xs).2.1, y ∈ pc.1.set :=
  View.cover_of_tiledL (kernelRun1_C c i arg3 harg3 arg4 harg4 arg5 harg5 arg6 harg6 hc0 hc1 x0 x1 xs).2.1 S1024x512.size (by sl_kernel_rfl) y

def sout1_C (hc0 : ¬cond1_0 i) (hc1 : cond1_1 i)
    (x0 : Vec F S1024x512 .bf16) (x1 : Vec F S512x512 .bf16) (xs : Vec F S1024x512 .f32) : Vec F S1024x512 .f32 :=
  VS1.read (Elt F) (VS1.writes (Elt F) VS1.junk (kernelRun1_C c i arg3 harg3 arg4 harg4 arg5 harg5 arg6 harg6 hc0 hc1 x0 x1 xs).2.1)

theorem cover1_C (hc0 : ¬cond1_0 i) (hc1 : cond1_1 i)
    (x0 : Vec F S1024x512 .bf16) (x1 : Vec F S512x512 .bf16) (xs : Vec F S1024x512 .f32) (y : S1024x512.Idx) :
    ∃ pc ∈ (kernelRun1_C c i arg3 harg3 arg4 harg4 arg5 harg5 arg6 harg6 hc0 hc1 x0 x1 xs).1, y ∈ pc.1.set :=
  View.cover_of_tiledL (kernelRun1_C c i arg3 harg3 arg4 harg4 arg5 harg5 arg6 harg6 hc0 hc1 x0 x1 xs).1 S1024x512.size (by sl_kernel_rfl) y

end

section
variable (V : (c : Dev nD) → (b : Ref sig .tc) → Buf (Elt F) ((c : Thread nD τ).loc b))

/-- A first step of a round at point t: (what its run leaves in the output block, what it leaves in the running sum). -/
abbrev ptA1 (c : Dev nD) (t : Fin cfg1.N) (h0 : t.val % 4 = 0) (h1 : ¬t.val % 4 = 3) : Vec F S1024x512 .bf16 × Vec F S1024x512 .f32 :=
  (out1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t), sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t))

/-- A middle step, the running sum found at xs. -/
abbrev ptB1 (c : Dev nD) (t : Fin cfg1.N) (h0 : ¬t.val % 4 = 0) (h1 : ¬t.val % 4 = 3) (xs : Vec F S1024x512 .f32) : Vec F S1024x512 .bf16 × Vec F S1024x512 .f32 :=
  (out1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) xs, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) xs)

/-- A last step, the running sum found at xs. -/
abbrev ptC1 (c : Dev nD) (t : Fin cfg1.N) (h0 : ¬t.val % 4 = 0) (h1 : t.val % 4 = 3) (xs : Vec F S1024x512 .f32) : Vec F S1024x512 .bf16 × Vec F S1024x512 .f32 :=
  (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) xs, sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) xs)

/-- After point n: (output block, running sum); n mod 4 says which step of its round n is. -/
def outsAt1 (c : Dev nD) : (n : ℕ) → n < cfg1.N → Vec F S1024x512 .bf16 × Vec F S1024x512 .f32 :=
  Cert.Steps.outsAt (ptA1 V c) (ptB1 V c) (ptC1 V c)

theorem outsAt1_A (c : Dev nD) (t : Fin cfg1.N) (h0 : t.val % 4 = 0) (h1 : ¬t.val % 4 = 3) :
    outsAt1 V c t.val t.isLt = ptA1 V c t h0 h1 := Cert.Steps.outsAt_A _ _ _ t h0 h1

theorem outsAt1_B (c : Dev nD) (t : Fin cfg1.N) (h0 : ¬t.val % 4 = 0) (h1 : ¬t.val % 4 = 3) :
    outsAt1 V c t.val t.isLt = ptB1 V c t h0 h1 (outsAt1 V c (t.val - 1) (Nat.lt_of_le_of_lt (Nat.sub_le _ _) t.isLt)).2 := Cert.Steps.outsAt_B _ _ _ t h0 h1

theorem outsAt1_C (c : Dev nD) (t : Fin cfg1.N) (h0 : ¬t.val % 4 = 0) (h1 : t.val % 4 = 3) :
    outsAt1 V c t.val t.isLt = ptC1 V c t h0 h1 (outsAt1 V c (t.val - 1) (Nat.lt_of_le_of_lt (Nat.sub_le _ _) t.isLt)).2 := Cert.Steps.outsAt_C _ _ _ t h0 h1

/-- The invariant before position n: the entry invariant at 0, afterwards the running sum owned at what point n - 1 left. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ Rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Rest1 (F := F) c) ∗ (∃ r, prngReg c r)) := by
  cases n with
  | zero => exact absurd rfl hz
  | succ n => rfl

/-- The invariant at any position is at least the one the region is entered with: the running sum's contents are forgotten. -/
theorem PhiS1_weaken (c : Dev nD) (n : ℕ) (h : n ≤ cfg1.N) : PhiS1 V c n h ⊢ Pipeline.ΦA spec1 c := by
  cases n with
  | zero => exact .rfl
  | succ n =>
    rw [PhiS1_succ, PhiA1_eq]
    iintro ⟨⟨HS, Hrb⟩, Hg⟩
    iframe Hrb Hg
    iexists _; iexact HS

/-- The region's data: inputs read as they were found, the output block after point t the first component above. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- One point's body, by the step n mod 4 selects: the running sum goes in at what the point before left and comes out at this point's value; only a last step writes the output block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
          unfold Dat.leavesExact; rw [liveAt1_0 t], after1_0]
  rw [show (dat1 V c).leavesExact 1 t = owns (c : Thread nD τ) (ms1_1 t) fullShare ((dat1 V c).after 1 t) from by
          unfold Dat.leavesExact; rw [liveAt1_1 t], after1_1]
  by_cases h0 : t.val % 4 = 0
  · by_cases h1 : t.val % 4 = 3
    · exfalso; omega
    · rw [Dat.leavesExact_idle (dat1 V c) 2 t (idleAt1_2 t (fun h => h1 ((hcond1_1 t).mp h))) (noFlush1_2 t (fun h => h1 ((hcond1_1 t).mp h)))]
      rw [outsAt1_A V c t h0 h1]
      unfold ptA1 sout1_A; (try dsimp only)
      rw [PhiS1_castSucc V c t]
      have hw := PhiS1_weaken V c t.val (Nat.le_of_lt t.isLt)
      rw [PhiA1_eq] at hw
      iintro ⟨HΦ, Ho, ⟨%d0, H0⟩, ⟨%d1, H1⟩, ⟨%d2, H2⟩⟩
      ihave HΦ := hw $$ HΦ
      icases HΦ with ⟨⟨HS, Hrb⟩, Hg⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      iframe H0 H1 H2 HS
      iintro ⟨H0, H1, H2, ⟨%eS, HS⟩⟩
      iframe Hrb Hg Ho H0 H1
      isplitl [HS]
      · unfold owns; iexists _; isplitr
        swap; · iexact HS
        ipureintro; exact View.read_writes_of_cover _ _ _ _ _ (scover1_A c _ _ _ _ _ _ _ _ _ _ _ _ _)
      iexists _; iexact H2
  · have hz : t.val ≠ 0 := fun h => h0 (by rw [h])
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold ptC1 out1_C sout1_C; (try dsimp only)
      rw [PhiS1_castSucc V c t, PhiS1_pos V c _ _ hz]
      iintro ⟨⟨⟨HS, Hrb⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      iframe H0 H1 HS
      isplitl [H2]; · iexists _; iexact H2
      iintro ⟨H0, H1, ⟨%eO, H2⟩, ⟨%eS, HS⟩⟩
      iframe Hrb Hg Ho H0 H1
      isplitl [HS]
      · unfold owns; iexists _; isplitr
        swap; · iexact HS
        ipureintro; exact View.read_writes_of_cover _ _ _ _ _ (scover1_C c _ _ _ _ _ _ _ _ _ _ _ _ _ _)
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold ptB1 sout1_B; (try dsimp only)
      rw [PhiS1_castSucc V c t, PhiS1_pos V c _ _ hz]
      iintro ⟨⟨⟨HS, Hrb⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      iframe H0 H1 H2 HS
      iintro ⟨H0, H1, H2, ⟨%eS, HS⟩⟩
      iframe Hrb Hg Ho H0 H1
      isplitl [HS]
      · unfold owns; iexists _; isplitr
        swap; · iexact HS
        ipureintro; exact View.read_writes_of_cover _ _ _ _ _ (scover1_B c _ _ _ _ _ _ _ _ _ _ _ _ _ _)
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c :=
  PhiS1_weaken V c (Fin.last cfg1.N).val (Nat.le_of_lt_succ (Fin.last cfg1.N).isLt)

end

end Cert.KernelIdeal.Regs

end
-- ==== Proof.KI.R2Runs.lean ====
import proofs.«146748_j31610959298744_1_alg».proof.Proof.Gen.KernelIdeal.Launch
import proofs.«146748_j31610959298744_1_alg».proof.Proof.Gen.KernelIdeal.Skeleton
import proofs.«146748_j31610959298744_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The rectangle of window w's array that point t works on. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end

/-- The body's first test: the point is the first step of its round. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- Its second test: the point is the last step of its round. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel

theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel

theorem liveAt2_3 : ∀ t : Fin cfg2.N, cond2_1 (grid2.coords t) → cfg2.idle 3 (grid2.coords t) = false := by decide +kernel

abbrev VO2 : View sig .tc .vmem S1024x512 .bf16 := (Memref.whole cc2_stg3_0 : Memref sig .tc .vmem S1024x512 .bf16).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x512 .bf16 := win2_3.stage (cfg2.slots t 3)
abbrev hs2_3 (t : Fin cfg2.N) : (ms2_3 t).IsWhole := hstage2_3 ((cfg2.slots t 3).cast nbuf2_3)

abbrev scM2 : Memref sig .tc .vmem S1024x512 .f32 := Memref.whole cc2_scratch0
abbrev VS2 : View sig .tc .vmem S1024x512 .f32 := scM2.view

theorem scopedRest2_acc (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

abbrev Rest2 (c : Dev nD) : sProp 𝕄 :=
  Pipeline.scopedRestBut (Ix := Unit) (Name := ℕ) (U := UR sig nD τ) (Lvl := ℕ) (Val := Elt F) spec2 c [cc2_scratch0]

/-- The entry invariant with the running sum's buffer named. -/
theorem PhiA2_eq (c : Dev nD) :
    (Pipeline.ΦA spec2 c : sProp 𝕄) = iprop(iprop((∃ d, owns (c : Thread nD τ) scM2 fullShare d) ∗ Rest2 (F := F) c) ∗ (∃ r, prngReg c r)) := by
  unfold Pipeline.ΦA; rw [scopedRest2_acc]; simp only [scM2, owns_whole]; try rfl

end Cert.KernelIdeal.Regs

end
-- ==== Proof.KI.R2Run.lean ====
import proofs.«146748_j31610959298744_1_alg».proof.Proof.KI.R2Runs

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid2.Coords) (arg3 : Memref sig .tc .vmem S1024x1024 .bf16) (harg3 : arg3.IsWhole) (arg4 : Memref sig .tc .vmem S512x1024 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole)

set_option maxHeartbeats 4000000 in
/-- The body run in its three control cases (first, middle, last step of a round); each run yields the lists of pieces its stores wrote, and the triple that has them as its result. -/
noncomputable def kernelRun2_A (hc0 : cond2_0 i) (hc1 : ¬cond2_1 i)
    (x0 : Vec F S1024x1024 .bf16) (x1 : Vec F S512x1024 .bf16) (x2 : Vec F S1x512 .f32) :
    Σ' (LO : List (View.Piece (Elt F) S1024x512 .bf16)), { LS : List (View.Piece (Elt F) S1024x512 .f32) //
      ∀ (xi : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc2__convscale_kernel i arg3 harg3 arg4 harg4 arg5 harg5 arg6 harg6 arg7 harg7) K } := by
  refine ⟨[], ?_, fun xi E K => ?run⟩
  case run =>
    simp only [cc2__convscale_kernel_eq_skeleton]; unfold cc2__convscale_kernel_skel
    unfold owns
    iintro ⟨⟨%f0, %hf0, H0⟩, ⟨%f1, %hf1, H1⟩, ⟨%f2, %hf2, H2⟩, ⟨%fO, %hfO, HO⟩, ⟨%dS, %fS, -, HS⟩, Hk⟩
    obtain rfl := harg3.eq_unread hf0; obtain rfl := harg4.eq_unread hf1; obtain rfl := harg5.eq_unread hf2; obtain rfl := harg6.eq_unread hfO
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HO]
    · iexists _; isplitr; · ipureintro; exact harg6.read_unread _
      iexact HO
    iexists _; iexact HS

set_option maxHeartbeats 4000000 in
noncomputable def kernelRun2_B (hc0 : ¬cond2_0 i) (hc1 : ¬cond2_1 i)
    (x0 : Vec F S1024x1024 .bf16) (x1 : Vec F S512x1024 .bf16) (x2 : Vec F S1x512 .f32) (xs : Vec F S1024x512 .f32) :
    Σ' (LO : List (View.Piece (Elt F) S1024x512 .bf16)), { LS : List (View.Piece (Elt F) S1024x512 .f32) //
      ∀ (xi : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc2__convscale_kernel i arg3 harg3 arg4 harg4 arg5 harg5 arg6 harg6 arg7 harg7) K } := by
  refine ⟨[], ?_, fun xi E K => ?run⟩
  case run =>
    simp only [cc2__convscale_kernel_eq_skeleton]; unfold cc2__convscale_kernel_skel
    unfold owns
    iintro ⟨⟨%f0, %hf0, H0⟩, ⟨%f1, %hf1, H1⟩, ⟨%f2, %hf2, H2⟩, ⟨%fO, %hfO, HO⟩, ⟨%fS, %hfS, HS⟩, Hk⟩
    obtain rfl := harg3.eq_unread hf0; obtain rfl := harg4.eq_unread hf1; obtain rfl := harg5.eq_unread hf2; obtain rfl := harg6.eq_unread hfO; obtain rfl := harg7.eq_unread hfS
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HO]
    · iexists _; isplitr; · ipureintro; exact harg6.read_unread _
      iexact HO
    iexists _; iexact HS

set_option maxHeartbeats 4000000 in
noncomputable def kernelRun2_C (hc0 : ¬cond2_0 i) (hc1 : cond2_1 i)
    (x0 : Vec F S1024x1024 .bf16) (x1 : Vec F S512x1024 .bf16) (x2 : Vec F S1x512 .f32) (xs : Vec F S1024x512 .f32) :
    Σ' (LO : List (View.Piece (Elt F) S1024x512 .bf16)), { LS : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc2__convscale_kernel i arg3 harg3 arg4 harg4 arg5 harg5 arg6 harg6 arg7 harg7) K } := by
  refine ⟨?_, ?_, fun E K => ?run⟩
  case run =>
    simp only [cc2__convscale_kernel_eq_skeleton]; unfold cc2__convscale_kernel_skel
    unfold owns
    iintro ⟨⟨%f0, %hf0, H0⟩, ⟨%f1, %hf1, H1⟩, ⟨%f2, %hf2, H2⟩, ⟨%dO, %fO, -, HO⟩, ⟨%fS, %hfS, HS⟩, Hk⟩
    obtain rfl := harg3.eq_unread hf0; obtain rfl := harg4.eq_unread hf1; obtain rfl := harg5.eq_unread hf2; obtain rfl := harg7.eq_unread hfS
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HO]; · iexists _; iexact HO
    iexists _; iexact HS

end

end Cert.KernelIdeal.Regs

end
-- ==== Proof.KI.R2Data.lean ====
import proofs.«146748_j31610959298744_1_alg».proof.Proof.KI.R2Run
import proofs.«146748_j31610959298744_1_alg».proof.Proof.Steps

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid2.Coords) (arg3 : Memref sig .tc .vmem S1024x1024 .bf16) (harg3 : arg3.IsWhole) (arg4 : Memref sig .tc .vmem S512x1024 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole)

def out2_A (hc0 : cond2_0 i) (hc1 : ¬cond2_1 i)
    (x0 : Vec F S1024x1024 .bf16) (x1 : Vec F S512x1024 .bf16) (x2 : Vec F S1x512 .f32) : Vec F S1024x512 .bf16 :=
  VO2.read (Elt F) (VO2.writes (Elt F) VO2.junk (kernelRun2_A c i arg3 harg3 arg4 harg4 arg5 harg5 arg6 harg6 arg7 harg7 hc0 hc1 x0 x1 x2).1)

theorem scover2_A (hc0 : cond2_0 i) (hc1 : ¬cond2_1 i)
    (x0 : Vec F S1024x1024 .bf16) (x1 : Vec F S512x1024 .bf16) (x2 : Vec F S1x512 .f32) (y : S1024x512.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S1024x512.size (by sl_kernel_rfl) y

def sout2_A (hc0 : cond2_0 i) (hc1 : ¬cond2_1 i)
    (x0 : Vec F S1024x1024 .bf16) (x1 : Vec F S512x1024 .bf16) (x2 : Vec F S1x512 .f32) : Vec F S1024x512 .f32 :=
  VS2.read (Elt F) (VS2.writes (Elt F) VS2.junk (kernelRun2_A c i arg3 harg3 arg4 harg4 arg5 harg5 arg6 harg6 arg7 harg7 hc0 hc1 x0 x1 x2).2.1)

def out2_B (hc0 : ¬cond2_0 i) (hc1 : ¬cond2_1 i)
    (x0 : Vec F S1024x1024 .bf16) (x1 : Vec F S512x1024 .bf16) (x2 : Vec F S1x512 .f32) (xs : Vec F S1024x512 .f32) : Vec F S1024x512 .bf16 :=
  VO2.read (Elt F) (VO2.writes (Elt F) VO2.junk (kernelRun2_B c i arg3 harg3 arg4 harg4 arg5 harg5 arg6 harg6 arg7 harg7 hc0 hc1 x0 x1 x2 xs).1)

theorem scover2_B (hc0 : ¬cond2_0 i) (hc1 : ¬cond2_1 i)
    (x0 : Vec F S1024x1024 .bf16) (x1 : Vec F S512x1024 .bf16) (x2 : Vec F S1x512 .f32) (xs : Vec F S1024x512 .f32) (y : S1024x512.Idx) :
    ∃ pc ∈ (kernelRun2_B c i arg3 harg3 arg4 harg4 arg5 harg5 arg6 harg6 arg7 harg7 hc0 hc1 x0 x1 x2 xs).2.1, y ∈ pc.1.set :=
  View.cover_of_tiledL (kernelRun2_B c i arg3 harg3 arg4 harg4 arg5 harg5 arg6 harg6 arg7 harg7 hc0 hc1 x0 x1 x2 xs).2.1 S1024x512.size (by sl_kernel_rfl) y

def sout2_B (hc0 : ¬cond2_0 i) (hc1 : ¬cond2_1 i)
    (x0 : Vec F S1024x1024 .bf16) (x1 : Vec F S512x1024 .bf16) (x2 : Vec F S1x512 .f32) (xs : Vec F S1024x512 .f32) : Vec F S1024x512 .f32 :=
  VS2.read (Elt F) (VS2.writes (Elt F) VS2.junk (kernelRun2_B c i arg3 harg3 arg4 harg4 arg5 harg5 arg6 harg6 arg7 harg7 hc0 hc1 x0 x1 x2 xs).2.1)

def out2_C (hc0 : ¬cond2_0 i) (hc1 : cond2_1 i)
    (x0 : Vec F S1024x1024 .bf16) (x1 : Vec F S512x1024 .bf16) (x2 : Vec F S1x512 .f32) (xs : Vec F S1024x512 .f32) : Vec F S1024x512 .bf16 :=
  VO2.read (Elt F) (VO2.writes (Elt F) VO2.junk (kernelRun2_C c i arg3 harg3 arg4 harg4 arg5 harg5 arg6 harg6 arg7 harg7 hc0 hc1 x0 x1 x2 xs).1)

theorem scover2_C (hc0 : ¬cond2_0 i) (hc1 : cond2_1 i)
    (x0 : Vec F S1024x1024 .bf16) (x1 : Vec F S512x1024 .bf16) (x2 : Vec F S1x512 .f32) (xs : Vec F S1024x512 .f32) (y : S1024x512.Idx) :
    ∃ pc ∈ (kernelRun2_C c i arg3 harg3 arg4 harg4 arg5 harg5 arg6 harg6 arg7 harg7 hc0 hc1 x0 x1 x2 xs).2.1, y ∈ pc.1.set :=
  View.cover_of_tiledL (kernelRun2_C c i arg3 harg3 arg4 harg4 arg5 harg5 arg6 harg6 arg7 harg7 hc0 hc1 x0 x1 x2 xs).2.1 S1024x512.size (by sl_kernel_rfl) y

def sout2_C (hc0 : ¬cond2_0 i) (hc1 : cond2_1 i)
    (x0 : Vec F S1024x1024 .bf16) (x1 : Vec F S512x1024 .bf16) (x2 : Vec F S1x512 .f32) (xs : Vec F S1024x512 .f32) : Vec F S1024x512 .f32 :=
  VS2.read (Elt F) (VS2.writes (Elt F) VS2.junk (kernelRun2_C c i arg3 harg3 arg4 harg4 arg5 harg5 arg6 harg6 arg7 harg7 hc0 hc1 x0 x1 x2 xs).2.1)

theorem cover2_C (hc0 : ¬cond2_0 i) (hc1 : cond2_1 i)
    (x0 : Vec F S1024x1024 .bf16) (x1 : Vec F S512x1024 .bf16) (x2 : Vec F S1x512 .f32) (xs : Vec F S1024x512 .f32) (y : S1024x512.Idx) :
    ∃ pc ∈ (kernelRun2_C c i arg3 harg3 arg4 harg4 arg5 harg5 arg6 harg6 arg7 harg7 hc0 hc1 x0 x1 x2 xs).1, y ∈ pc.1.set :=
  View.cover_of_tiledL (kernelRun2_C c i arg3 harg3 arg4 harg4 arg5 harg5 arg6 harg6 arg7 harg7 hc0 hc1 x0 x1 x2 xs).1 S1024x512.size (by sl_kernel_rfl) y

end

section
variable (V : (c : Dev nD) → (b : Ref sig .tc) → Buf (Elt F) ((c : Thread nD τ).loc b))

/-- A first step of a round at point t: (what its run leaves in the output block, what it leaves in the running sum). -/
abbrev ptA2 (c : Dev nD) (t : Fin cfg2.N) (h0 : t.val % 4 = 0) (h1 : ¬t.val % 4 = 3) : Vec F S1024x512 .bf16 × Vec F S1024x512 .f32 :=
  (out2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t), sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t))

/-- A middle step, the running sum found at xs. -/
abbrev ptB2 (c : Dev nD) (t : Fin cfg2.N) (h0 : ¬t.val % 4 = 0) (h1 : ¬t.val % 4 = 3) (xs : Vec F S1024x512 .f32) : Vec F S1024x512 .bf16 × Vec F S1024x512 .f32 :=
  (out2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) xs, sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) xs)

/-- A last step, the running sum found at xs. -/
abbrev ptC2 (c : Dev nD) (t : Fin cfg2.N) (h0 : ¬t.val % 4 = 0) (h1 : t.val % 4 = 3) (xs : Vec F S1024x512 .f32) : Vec F S1024x512 .bf16 × Vec F S1024x512 .f32 :=
  (out2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) xs, sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) xs)

/-- After point n: (output block, running sum); n mod 4 says which step of its round n is. -/
def outsAt2 (c : Dev nD) : (n : ℕ) → n < cfg2.N → Vec F S1024x512 .bf16 × Vec F S1024x512 .f32 :=
  Cert.Steps.outsAt (ptA2 V c) (ptB2 V c) (ptC2 V c)

theorem outsAt2_A (c : Dev nD) (t : Fin cfg2.N) (h0 : t.val % 4 = 0) (h1 : ¬t.val % 4 = 3) :
    outsAt2 V c t.val t.isLt = ptA2 V c t h0 h1 := Cert.Steps.outsAt_A _ _ _ t h0 h1

theorem outsAt2_B (c : Dev nD) (t : Fin cfg2.N) (h0 : ¬t.val % 4 = 0) (h1 : ¬t.val % 4 = 3) :
    outsAt2 V c t.val t.isLt = ptB2 V c t h0 h1 (outsAt2 V c (t.val - 1) (Nat.lt_of_le_of_lt (Nat.sub_le _ _) t.isLt)).2 := Cert.Steps.outsAt_B _ _ _ t h0 h1

theorem outsAt2_C (c : Dev nD) (t : Fin cfg2.N) (h0 : ¬t.val % 4 = 0) (h1 : t.val % 4 = 3) :
    outsAt2 V c t.val t.isLt = ptC2 V c t h0 h1 (outsAt2 V c (t.val - 1) (Nat.lt_of_le_of_lt (Nat.sub_le _ _) t.isLt)).2 := Cert.Steps.outsAt_C _ _ _ t h0 h1

/-- The invariant before position n: the entry invariant at 0, afterwards the running sum owned at what point n - 1 left. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ Rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Rest2 (F := F) c) ∗ (∃ r, prngReg c r)) := by
  cases n with
  | zero => exact absurd rfl hz
  | succ n => rfl

/-- The invariant at any position is at least the one the region is entered with: the running sum's contents are forgotten. -/
theorem PhiS2_weaken (c : Dev nD) (n : ℕ) (h : n ≤ cfg2.N) : PhiS2 V c n h ⊢ Pipeline.ΦA spec2 c := by
  cases n with
  | zero => exact .rfl
  | succ n =>
    rw [PhiS2_succ, PhiA2_eq]
    iintro ⟨⟨HS, Hrb⟩, Hg⟩
    iframe Hrb Hg
    iexists _; iexact HS

/-- The region's data: inputs read as they were found, the output block after point t the first component above. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- One point's body, by the step n mod 4 selects: the running sum goes in at what the point before left and comes out at this point's value; only a last step writes the output block. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
          unfold Dat.leavesExact; rw [liveAt2_0 t], after2_0]
  rw [show (dat2 V c).leavesExact 1 t = owns (c : Thread nD τ) (ms2_1 t) fullShare ((dat2 V c).after 1 t) from by
          unfold Dat.leavesExact; rw [liveAt2_1 t], after2_1]
  rw [show (dat2 V c).leavesExact 2 t = owns (c : Thread nD τ) (ms2_2 t) fullShare ((dat2 V c).after 2 t) from by
          unfold Dat.leavesExact; rw [liveAt2_2 t], after2_2]
  by_cases h0 : t.val % 4 = 0
  · by_cases h1 : t.val % 4 = 3
    · exfalso; omega
    · rw [Dat.leavesExact_idle (dat2 V c) 3 t (idleAt2_3 t (fun h => h1 ((hcond2_1 t).mp h))) (noFlush2_3 t (fun h => h1 ((hcond2_1 t).mp h)))]
      rw [outsAt2_A V c t h0 h1]
      unfold ptA2 sout2_A; (try dsimp only)
      rw [PhiS2_castSucc V c t]
      have hw := PhiS2_weaken V c t.val (Nat.le_of_lt t.isLt)
      rw [PhiA2_eq] at hw
      iintro ⟨HΦ, Ho, ⟨%d0, H0⟩, ⟨%d1, H1⟩, ⟨%d2, H2⟩, ⟨%d3, H3⟩⟩
      ihave HΦ := hw $$ HΦ
      icases HΦ with ⟨⟨HS, Hrb⟩, Hg⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      iframe H0 H1 H2 H3 HS
      iintro ⟨H0, H1, H2, H3, ⟨%eS, HS⟩⟩
      iframe Hrb Hg Ho H0 H1 H2
      isplitl [HS]
      · unfold owns; iexists _; isplitr
        swap; · iexact HS
        ipureintro; exact View.read_writes_of_cover _ _ _ _ _ (scover2_A c _ _ _ _ _ _ _ _ _ _ _ _ _ _ _ _)
      iexists _; iexact H3
  · have hz : t.val ≠ 0 := fun h => h0 (by rw [h])
    by_cases h1 : t.val % 4 = 3
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold ptC2 out2_C sout2_C; (try dsimp only)
      rw [PhiS2_castSucc V c t, PhiS2_pos V c _ _ hz]
      iintro ⟨⟨⟨HS, Hrb⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      iframe H0 H1 H2 HS
      isplitl [H3]; · iexists _; iexact H3
      iintro ⟨H0, H1, H2, ⟨%eO, H3⟩, ⟨%eS, HS⟩⟩
      iframe Hrb Hg Ho H0 H1 H2
      isplitl [HS]
      · unfold owns; iexists _; isplitr
        swap; · iexact HS
        ipureintro; exact View.read_writes_of_cover _ _ _ _ _ (scover2_C c _ _ _ _ _ _ _ _ _ _ _ _ _ _ _ _ _)
      unfold owns; iexists _; isplitr
      swap; · iexact H3
      ipureintro; exact View.read_writes_of_cover _ _ _ _ _ (cover2_C c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [outsAt2_B V c t h0 h1]
      unfold ptB2 sout2_B; (try dsimp only)
      rw [PhiS2_castSucc V c t, PhiS2_pos V c _ _ hz]
      iintro ⟨⟨⟨HS, Hrb⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      iframe H0 H1 H2 H3 HS
      iintro ⟨H0, H1, H2, H3, ⟨%eS, HS⟩⟩
      iframe Hrb Hg Ho H0 H1 H2
      isplitl [HS]
      · unfold owns; iexists _; isplitr
        swap; · iexact HS
        ipureintro; exact View.read_writes_of_cover _ _ _ _ _ (scover2_B c _ _ _ _ _ _ _ _ _ _ _ _ _ _ _ _ _)
      iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c :=
  PhiS2_weaken V c (Fin.last cfg2.N).val (Nat.le_of_lt_succ (Fin.last cfg2.N).isLt)

end

end Cert.KernelIdeal.Regs

end
-- ==== Proof.KI.R3Runs.lean ====
import proofs.«146748_j31610959298744_1_alg».proof.Proof.Gen.KernelIdeal.Launch
import proofs.«146748_j31610959298744_1_alg».proof.Proof.Gen.KernelIdeal.Skeleton
import proofs.«146748_j31610959298744_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The rectangle of window w's array that point t works on. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end

/-- The body's first test: the point is the first step of its round. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

/-- Its second test: the point is the last step of its round. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel

theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel

theorem liveAt3_3 : ∀ t : Fin cfg3.N, cond3_1 (grid3.coords t) → cfg3.idle 3 (grid3.coords t) = false := by decide +kernel

abbrev VO3 : View sig .tc .vmem S1024x512 .f32 := (Memref.whole cc3_stg3_0 : Memref sig .tc .vmem S1024x512 .f32).view
abbrev ms3_0 (t : Fin cfg3.N) : Memref sig .tc .vmem S1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x1024 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x512 .f32 := win3_3.stage (cfg3.slots t 3)
abbrev hs3_3 (t : Fin cfg3.N) : (ms3_3 t).IsWhole := hstage3_3 ((cfg3.slots t 3).cast nbuf3_3)

abbrev scM3 : Memref sig .tc .vmem S1024x512 .f32 := Memref.whole cc3_scratch0
abbrev VS3 : View sig .tc .vmem S1024x512 .f32 := scM3.view

theorem scopedRest3_acc (c : Dev nD) :
    (Pipeline.scopedRest (Ix := Unit) (Name := ℕ) (U := UR sig nD τ) (Lvl := ℕ) (Val := Elt F) spec3 c : sProp 𝕄)
      = iprop(iprop((∃ f : Buf (Elt F) ((c : Thread nD τ).loc cc3_scratch0), ((c : Thread nD τ).loc cc3_scratch0) ↦{fullShare} f))
          ∗ Pipeline.scopedRestBut (Ix := Unit) (Name := ℕ) (U := UR sig nD τ) (Lvl := ℕ) (Val := Elt F) spec3 c [cc3_scratch0]) :=
  Pipeline.scopedRest_split_of_list spec3 c [cc3_scratch0] (by decide) (by decide)

abbrev Rest3 (c : Dev nD) : sProp 𝕄 :=
  Pipeline.scopedRestBut (Ix := Unit) (Name := ℕ) (U := UR sig nD τ) (Lvl := ℕ) (Val := Elt F) spec3 c [cc3_scratch0]

/-- The entry invariant with the running sum's buffer named. -/
theorem PhiA3_eq (c : Dev nD) :
    (Pipeline.ΦA spec3 c : sProp 𝕄) = iprop(iprop((∃ d, owns (c : Thread nD τ) scM3 fullShare d) ∗ Rest3 (F := F) c) ∗ (∃ r, prngReg c r)) := by
  unfold Pipeline.ΦA; rw [scopedRest3_acc]; simp only [scM3, owns_whole]; try rfl

end Cert.KernelIdeal.Regs

end
-- ==== Proof.KI.R3Run.lean ====
import proofs.«146748_j31610959298744_1_alg».proof.Proof.KI.R3Runs

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S1024x512 .f32) (harg6 : arg6.IsWhole) (arg7 : Memref sig .tc .vmem S1024x512 .f32) (harg7 : arg7.IsWhole)

set_option maxHeartbeats 4000000 in
/-- The body run in its three control cases (first, middle, last step of a round); each run yields the lists of pieces its stores wrote, and the triple that has them as its result. -/
noncomputable def kernelRun3_A (hc0 : cond3_0 i) (hc1 : ¬cond3_1 i)
    (x0 : Vec F S1024x1024 .bf16) (x1 : Vec F S1024x1024 .bf16) (x2 : Vec F S512x1024 .bf16) :
    Σ' (LO : List (View.Piece (Elt F) S1024x512 .f32)), { LS : List (View.Piece (Elt F) S1024x512 .f32) //
      ∀ (xi : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc3__gateout_kernel i arg3 harg3 arg4 harg4 arg5 harg5 arg6 harg6 arg7 harg7) K } := by
  refine ⟨[], ?_, fun xi E K => ?run⟩
  case run =>
    simp only [cc3__gateout_kernel_eq_skeleton]; unfold cc3__gateout_kernel_skel
    unfold owns
    iintro ⟨⟨%f0, %hf0, H0⟩, ⟨%f1, %hf1, H1⟩, ⟨%f2, %hf2, H2⟩, ⟨%fO, %hfO, HO⟩, ⟨%dS, %fS, -, HS⟩, Hk⟩
    obtain rfl := harg3.eq_unread hf0; obtain rfl := harg4.eq_unread hf1; obtain rfl := harg5.eq_unread hf2; obtain rfl := harg6.eq_unread hfO
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HO]
    · iexists _; isplitr; · ipureintro; exact harg6.read_unread _
      iexact HO
    iexists _; iexact HS

set_option maxHeartbeats 4000000 in
noncomputable def kernelRun3_B (hc0 : ¬cond3_0 i) (hc1 : ¬cond3_1 i)
    (x0 : Vec F S1024x1024 .bf16) (x1 : Vec F S1024x1024 .bf16) (x2 : Vec F S512x1024 .bf16) (xs : Vec F S1024x512 .f32) :
    Σ' (LO : List (View.Piece (Elt F) S1024x512 .f32)), { LS : List (View.Piece (Elt F) S1024x512 .f32) //
      ∀ (xi : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc3__gateout_kernel i arg3 harg3 arg4 harg4 arg5 harg5 arg6 harg6 arg7 harg7) K } := by
  refine ⟨[], ?_, fun xi E K => ?run⟩
  case run =>
    simp only [cc3__gateout_kernel_eq_skeleton]; unfold cc3__gateout_kernel_skel
    unfold owns
    iintro ⟨⟨%f0, %hf0, H0⟩, ⟨%f1, %hf1, H1⟩, ⟨%f2, %hf2, H2⟩, ⟨%fO, %hfO, HO⟩, ⟨%fS, %hfS, HS⟩, Hk⟩
    obtain rfl := harg3.eq_unread hf0; obtain rfl := harg4.eq_unread hf1; obtain rfl := harg5.eq_unread hf2; obtain rfl := harg6.eq_unread hfO; obtain rfl := harg7.eq_unread hfS
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HO]
    · iexists _; isplitr; · ipureintro; exact harg6.read_unread _
      iexact HO
    iexists _; iexact HS

set_option maxHeartbeats 4000000 in
noncomputable def kernelRun3_C (hc0 : ¬cond3_0 i) (hc1 : cond3_1 i)
    (x0 : Vec F S1024x1024 .bf16) (x1 : Vec F S1024x1024 .bf16) (x2 : Vec F S512x1024 .bf16) (xs : Vec F S1024x512 .f32) :
    Σ' (LO : List (View.Piece (Elt F) S1024x512 .f32)), { LS : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc3__gateout_kernel i arg3 harg3 arg4 harg4 arg5 harg5 arg6 harg6 arg7 harg7) K } := by
  refine ⟨?_, ?_, fun E K => ?run⟩
  case run =>
    simp only [cc3__gateout_kernel_eq_skeleton]; unfold cc3__gateout_kernel_skel
    unfold owns
    iintro ⟨⟨%f0, %hf0, H0⟩, ⟨%f1, %hf1, H1⟩, ⟨%f2, %hf2, H2⟩, ⟨%dO, %fO, -, HO⟩, ⟨%fS, %hfS, HS⟩, Hk⟩
    obtain rfl := harg3.eq_unread hf0; obtain rfl := harg4.eq_unread hf1; obtain rfl := harg5.eq_unread hf2; obtain rfl := harg7.eq_unread hfS
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HO]; · iexists _; iexact HO
    iexists _; iexact HS

end

end Cert.KernelIdeal.Regs

end
-- ==== Proof.KI.R3Data.lean ====
import proofs.«146748_j31610959298744_1_alg».proof.Proof.KI.R3Run
import proofs.«146748_j31610959298744_1_alg».proof.Proof.Steps

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S1024x512 .f32) (harg6 : arg6.IsWhole) (arg7 : Memref sig .tc .vmem S1024x512 .f32) (harg7 : arg7.IsWhole)

def out3_A (hc0 : cond3_0 i) (hc1 : ¬cond3_1 i)
    (x0 : Vec F S1024x1024 .bf16) (x1 : Vec F S1024x1024 .bf16) (x2 : Vec F S512x1024 .bf16) : Vec F S1024x512 .f32 :=
  VO3.read (Elt F) (VO3.writes (Elt F) VO3.junk (kernelRun3_A c i arg3 harg3 arg4 harg4 arg5 harg5 arg6 harg6 arg7 harg7 hc0 hc1 x0 x1 x2).1)

theorem scover3_A (hc0 : cond3_0 i) (hc1 : ¬cond3_1 i)
    (x0 : Vec F S1024x1024 .bf16) (x1 : Vec F S1024x1024 .bf16) (x2 : Vec F S512x1024 .bf16) (y : S1024x512.Idx) :
    ∃ pc ∈ (kernelRun3_A c i arg3 harg3 arg4 harg4 arg5 harg5 arg6 harg6 arg7 harg7 hc0 hc1 x0 x1 x2).2.1, y ∈ pc.1.set :=
  View.cover_of_tiledL (kernelRun3_A c i arg3 harg3 arg4 harg4 arg5 harg5 arg6 harg6 arg7 harg7 hc0 hc1 x0 x1 x2).2.1 S1024x512.size (by sl_kernel_rfl) y

def sout3_A (hc0 : cond3_0 i) (hc1 : ¬cond3_1 i)
    (x0 : Vec F S1024x1024 .bf16) (x1 : Vec F S1024x1024 .bf16) (x2 : Vec F S512x1024 .bf16) : Vec F S1024x512 .f32 :=
  VS3.read (Elt F) (VS3.writes (Elt F) VS3.junk (kernelRun3_A c i arg3 harg3 arg4 harg4 arg5 harg5 arg6 harg6 arg7 harg7 hc0 hc1 x0 x1 x2).2.1)

def out3_B (hc0 : ¬cond3_0 i) (hc1 : ¬cond3_1 i)
    (x0 : Vec F S1024x1024 .bf16) (x1 : Vec F S1024x1024 .bf16) (x2 : Vec F S512x1024 .bf16) (xs : Vec F S1024x512 .f32) : Vec F S1024x512 .f32 :=
  VO3.read (Elt F) (VO3.writes (Elt F) VO3.junk (kernelRun3_B c i arg3 harg3 arg4 harg4 arg5 harg5 arg6 harg6 arg7 harg7 hc0 hc1 x0 x1 x2 xs).1)

theorem scover3_B (hc0 : ¬cond3_0 i) (hc1 : ¬cond3_1 i)
    (x0 : Vec F S1024x1024 .bf16) (x1 : Vec F S1024x1024 .bf16) (x2 : Vec F S512x1024 .bf16) (xs : Vec F S1024x512 .f32) (y : S1024x512.Idx) :
    ∃ pc ∈ (kernelRun3_B c i arg3 harg3 arg4 harg4 arg5 harg5 arg6 harg6 arg7 harg7 hc0 hc1 x0 x1 x2 xs).2.1, y ∈ pc.1.set :=
  View.cover_of_tiledL (kernelRun3_B c i arg3 harg3 arg4 harg4 arg5 harg5 arg6 harg6 arg7 harg7 hc0 hc1 x0 x1 x2 xs).2.1 S1024x512.size (by sl_kernel_rfl) y

def sout3_B (hc0 : ¬cond3_0 i) (hc1 : ¬cond3_1 i)
    (x0 : Vec F S1024x1024 .bf16) (x1 : Vec F S1024x1024 .bf16) (x2 : Vec F S512x1024 .bf16) (xs : Vec F S1024x512 .f32) : Vec F S1024x512 .f32 :=
  VS3.read (Elt F) (VS3.writes (Elt F) VS3.junk (kernelRun3_B c i arg3 harg3 arg4 harg4 arg5 harg5 arg6 harg6 arg7 harg7 hc0 hc1 x0 x1 x2 xs).2.1)

def out3_C (hc0 : ¬cond3_0 i) (hc1 : cond3_1 i)
    (x0 : Vec F S1024x1024 .bf16) (x1 : Vec F S1024x1024 .bf16) (x2 : Vec F S512x1024 .bf16) (xs : Vec F S1024x512 .f32) : Vec F S1024x512 .f32 :=
  VO3.read (Elt F) (VO3.writes (Elt F) VO3.junk (kernelRun3_C c i arg3 harg3 arg4 harg4 arg5 harg5 arg6 harg6 arg7 harg7 hc0 hc1 x0 x1 x2 xs).1)

theorem scover3_C (hc0 : ¬cond3_0 i) (hc1 : cond3_1 i)
    (x0 : Vec F S1024x1024 .bf16) (x1 : Vec F S1024x1024 .bf16) (x2 : Vec F S512x1024 .bf16) (xs : Vec F S1024x512 .f32) (y : S1024x512.Idx) :
    ∃ pc ∈ (kernelRun3_C c i arg3 harg3 arg4 harg4 arg5 harg5 arg6 harg6 arg7 harg7 hc0 hc1 x0 x1 x2 xs).2.1, y ∈ pc.1.set :=
  View.cover_of_tiledL (kernelRun3_C c i arg3 harg3 arg4 harg4 arg5 harg5 arg6 harg6 arg7 harg7 hc0 hc1 x0 x1 x2 xs).2.1 S1024x512.size (by sl_kernel_rfl) y

def sout3_C (hc0 : ¬cond3_0 i) (hc1 : cond3_1 i)
    (x0 : Vec F S1024x1024 .bf16) (x1 : Vec F S1024x1024 .bf16) (x2 : Vec F S512x1024 .bf16) (xs : Vec F S1024x512 .f32) : Vec F S1024x512 .f32 :=
  VS3.read (Elt F) (VS3.writes (Elt F) VS3.junk (kernelRun3_C c i arg3 harg3 arg4 harg4 arg5 harg5 arg6 harg6 arg7 harg7 hc0 hc1 x0 x1 x2 xs).2.1)

theorem cover3_C (hc0 : ¬cond3_0 i) (hc1 : cond3_1 i)
    (x0 : Vec F S1024x1024 .bf16) (x1 : Vec F S1024x1024 .bf16) (x2 : Vec F S512x1024 .bf16) (xs : Vec F S1024x512 .f32) (y : S1024x512.Idx) :
    ∃ pc ∈ (kernelRun3_C c i arg3 harg3 arg4 harg4 arg5 harg5 arg6 harg6 arg7 harg7 hc0 hc1 x0 x1 x2 xs).1, y ∈ pc.1.set :=
  View.cover_of_tiledL (kernelRun3_C c i arg3 harg3 arg4 harg4 arg5 harg5 arg6 harg6 arg7 harg7 hc0 hc1 x0 x1 x2 xs).1 S1024x512.size (by sl_kernel_rfl) y

end

section
variable (V : (c : Dev nD) → (b : Ref sig .tc) → Buf (Elt F) ((c : Thread nD τ).loc b))

/-- A first step of a round at point t: (what its run leaves in the output block, what it leaves in the running sum). -/
abbrev ptA3 (c : Dev nD) (t : Fin cfg3.N) (h0 : t.val % 4 = 0) (h1 : ¬t.val % 4 = 3) : Vec F S1024x512 .f32 × Vec F S1024x512 .f32 :=
  (out3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t), sout3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t))

/-- A middle step, the running sum found at xs. -/
abbrev ptB3 (c : Dev nD) (t : Fin cfg3.N) (h0 : ¬t.val % 4 = 0) (h1 : ¬t.val % 4 = 3) (xs : Vec F S1024x512 .f32) : Vec F S1024x512 .f32 × Vec F S1024x512 .f32 :=
  (out3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 1 t) (iblk3 V c 2 t) xs, sout3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 1 t) (iblk3 V c 2 t) xs)

/-- A last step, the running sum found at xs. -/
abbrev ptC3 (c : Dev nD) (t : Fin cfg3.N) (h0 : ¬t.val % 4 = 0) (h1 : t.val % 4 = 3) (xs : Vec F S1024x512 .f32) : Vec F S1024x512 .f32 × Vec F S1024x512 .f32 :=
  (out3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) xs, sout3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) xs)

/-- After point n: (output block, running sum); n mod 4 says which step of its round n is. -/
def outsAt3 (c : Dev nD) : (n : ℕ) → n < cfg3.N → Vec F S1024x512 .f32 × Vec F S1024x512 .f32 :=
  Cert.Steps.outsAt (ptA3 V c) (ptB3 V c) (ptC3 V c)

theorem outsAt3_A (c : Dev nD) (t : Fin cfg3.N) (h0 : t.val % 4 = 0) (h1 : ¬t.val % 4 = 3) :
    outsAt3 V c t.val t.isLt = ptA3 V c t h0 h1 := Cert.Steps.outsAt_A _ _ _ t h0 h1

theorem outsAt3_B (c : Dev nD) (t : Fin cfg3.N) (h0 : ¬t.val % 4 = 0) (h1 : ¬t.val % 4 = 3) :
    outsAt3 V c t.val t.isLt = ptB3 V c t h0 h1 (outsAt3 V c (t.val - 1) (Nat.lt_of_le_of_lt (Nat.sub_le _ _) t.isLt)).2 := Cert.Steps.outsAt_B _ _ _ t h0 h1

theorem outsAt3_C (c : Dev nD) (t : Fin cfg3.N) (h0 : ¬t.val % 4 = 0) (h1 : t.val % 4 = 3) :
    outsAt3 V c t.val t.isLt = ptC3 V c t h0 h1 (outsAt3 V c (t.val - 1) (Nat.lt_of_le_of_lt (Nat.sub_le _ _) t.isLt)).2 := Cert.Steps.outsAt_C _ _ _ t h0 h1

/-- The invariant before position n: the entry invariant at 0, afterwards the running sum owned at what point n - 1 left. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ Rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2) ∗ Rest3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ Rest3 (F := F) c) ∗ (∃ r, prngReg c r)) := by
  cases n with
  | zero => exact absurd rfl hz
  | succ n => rfl

/-- The invariant at any position is at least the one the region is entered with: the running sum's contents are forgotten. -/
theorem PhiS3_weaken (c : Dev nD) (n : ℕ) (h : n ≤ cfg3.N) : PhiS3 V c n h ⊢ Pipeline.ΦA spec3 c := by
  cases n with
  | zero => exact .rfl
  | succ n =>
    rw [PhiS3_succ, PhiA3_eq]
    iintro ⟨⟨HS, Hrb⟩, Hg⟩
    iframe Hrb Hg
    iexists _; iexact HS

/-- The region's data: inputs read as they were found, the output block after point t the first component above. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- One point's body, by the step n mod 4 selects: the running sum goes in at what the point before left and comes out at this point's value; only a last step writes the output block. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
          unfold Dat.leavesExact; rw [liveAt3_0 t], after3_0]
  rw [show (dat3 V c).leavesExact 1 t = owns (c : Thread nD τ) (ms3_1 t) fullShare ((dat3 V c).after 1 t) from by
          unfold Dat.leavesExact; rw [liveAt3_1 t], after3_1]
  rw [show (dat3 V c).leavesExact 2 t = owns (c : Thread nD τ) (ms3_2 t) fullShare ((dat3 V c).after 2 t) from by
          unfold Dat.leavesExact; rw [liveAt3_2 t], after3_2]
  by_cases h0 : t.val % 4 = 0
  · by_cases h1 : t.val % 4 = 3
    · exfalso; omega
    · rw [Dat.leavesExact_idle (dat3 V c) 3 t (idleAt3_3 t (fun h => h1 ((hcond3_1 t).mp h))) (noFlush3_3 t (fun h => h1 ((hcond3_1 t).mp h)))]
      rw [outsAt3_A V c t h0 h1]
      unfold ptA3 sout3_A; (try dsimp only)
      rw [PhiS3_castSucc V c t]
      have hw := PhiS3_weaken V c t.val (Nat.le_of_lt t.isLt)
      rw [PhiA3_eq] at hw
      iintro ⟨HΦ, Ho, ⟨%d0, H0⟩, ⟨%d1, H1⟩, ⟨%d2, H2⟩, ⟨%d3, H3⟩⟩
      ihave HΦ := hw $$ HΦ
      icases HΦ with ⟨⟨HS, Hrb⟩, Hg⟩
      iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
      iframe H0 H1 H2 H3 HS
      iintro ⟨H0, H1, H2, H3, ⟨%eS, HS⟩⟩
      iframe Hrb Hg Ho H0 H1 H2
      isplitl [HS]
      · unfold owns; iexists _; isplitr
        swap; · iexact HS
        ipureintro; exact View.read_writes_of_cover _ _ _ _ _ (scover3_A c _ _ _ _ _ _ _ _ _ _ _ _ _ _ _ _)
      iexists _; iexact H3
  · have hz : t.val ≠ 0 := fun h => h0 (by rw [h])
    by_cases h1 : t.val % 4 = 3
    · rw [show (dat3 V c).leavesExact 3 t = owns (c : Thread nD τ) (ms3_3 t) fullShare ((dat3 V c).after 3 t) from by
        unfold Dat.leavesExact; rw [liveAt3_3 t ((hcond3_1 t).mpr h1)], after3_3]
      rw [outsAt3_C V c t h0 h1]
      unfold ptC3 out3_C sout3_C; (try dsimp only)
      rw [PhiS3_castSucc V c t, PhiS3_pos V c _ _ hz]
      iintro ⟨⟨⟨HS, Hrb⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      iframe H0 H1 H2 HS
      isplitl [H3]; · iexists _; iexact H3
      iintro ⟨H0, H1, H2, ⟨%eO, H3⟩, ⟨%eS, HS⟩⟩
      iframe Hrb Hg Ho H0 H1 H2
      isplitl [HS]
      · unfold owns; iexists _; isplitr
        swap; · iexact HS
        ipureintro; exact View.read_writes_of_cover _ _ _ _ _ (scover3_C c _ _ _ _ _ _ _ _ _ _ _ _ _ _ _ _ _)
      unfold owns; iexists _; isplitr
      swap; · iexact H3
      ipureintro; exact View.read_writes_of_cover _ _ _ _ _ (cover3_C c _ _ _ _ _ _ _ _ _ _ _ _ _ _ _ _ _)
    · rw [Dat.leavesExact_idle (dat3 V c) 3 t (idleAt3_3 t (fun h => h1 ((hcond3_1 t).mp h))) (noFlush3_3 t (fun h => h1 ((hcond3_1 t).mp h)))]
      rw [outsAt3_B V c t h0 h1]
      unfold ptB3 sout3_B; (try dsimp only)
      rw [PhiS3_castSucc V c t, PhiS3_pos V c _ _ hz]
      iintro ⟨⟨⟨HS, Hrb⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
      iframe H0 H1 H2 H3 HS
      iintro ⟨H0, H1, H2, H3, ⟨%eS, HS⟩⟩
      iframe Hrb Hg Ho H0 H1 H2
      isplitl [HS]
      · unfold owns; iexists _; isplitr
        swap; · iexact HS
        ipureintro; exact View.read_writes_of_cover _ _ _ _ _ (scover3_B c _ _ _ _ _ _ _ _ _ _ _ _ _ _ _ _ _)
      iexists _; iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c :=
  PhiS3_weaken V c (Fin.last cfg3.N).val (Nat.le_of_lt_succ (Fin.last cfg3.N).isLt)

end

end Cert.KernelIdeal.Regs

end
-- ==== Proof.KI.Launch.lean ====
import proofs.«146748_j31610959298744_1_alg».proof.Proof.KI.R0Data
import proofs.«146748_j31610959298744_1_alg».proof.Proof.KI.R1Data
import proofs.«146748_j31610959298744_1_alg».proof.Proof.KI.R2Data
import proofs.«146748_j31610959298744_1_alg».proof.Proof.KI.R3Data
import proofs.«146748_j31610959298744_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After a region: its arrays at what it leaves, every other buffer as before (W2 … W5, one per region). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b

def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b

def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev V5 : (c : Dev nD) → (b : Ref sig .tc) → Buf (Elt F) ((c : Thread nD τ).loc b) := fun c b => W5 m ρ c b

abbrev W6 : Dev nD → Valuation τ sig (Elt F) := fun c => StableHlo.after hostOps4 (W5 m ρ c)

theorem W1_of (c : Dev nD) (r : Ref sig .tc) (h : r ∉ hostOps0_W) : W1 m ρ c r = W0 m ρ c r :=
  StableHlo.after_of_writes_sub hostOps0 _ hostOps0_writes h

theorem W6_of (c : Dev nD) (r : Ref sig .tc) (h : r ∉ hostOps4_W) : W6 m ρ c r = W5 m ρ c r :=
  StableHlo.after_of_writes_sub hostOps4 _ hostOps4_writes h

/-- The argument arrays. -/
abbrev args : List (Ref sig .tc) := [main_arg0, main_arg1, main_arg2, main_arg3, main_arg4, main_arg5, main_arg6, main_arg7]

/-- No host operation and no region writes an argument array, and none is scoped. -/
theorem args_kept : ∀ b ∈ args, b ∉ hostOps4_W ∧ (∀ w, Pipeline.arrRef spec3 w ≠ b) ∧ (∀ w, Pipeline.arrRef spec2 w ≠ b)
    ∧ (∀ w, Pipeline.arrRef spec1 w ≠ b) ∧ (∀ w, Pipeline.arrRef spec0 w ≠ b) ∧ b ∉ hostOps0_W
    ∧ ¬(Proc.devRef .tc b : DevRef τ sig).isScoped := by decide

theorem W6_arg (c : Dev nD) (b : Ref sig .tc) (hb : b ∈ args) : W6 m ρ c (Proc.devRef .tc b) = m ((c : Thread nD τ).loc b) := by
  obtain ⟨h6, h5, h4, h3, h2, h1, -⟩ := args_kept b hb
  exact (W6_of m ρ c b h6).trans <| (W5_of_ne m ρ c b h5).trans <| (W4_of_ne m ρ c b h4).trans <|
    (W3_of_ne m ρ c b h3).trans <| (W2_of_ne m ρ c b h2).trans <| (W1_of m ρ c b h1).trans rfl

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

set_option backward.isDefEq.respectTransparency.types false in
/-- One kernel call as a step of the program's run: every buffer outside the call's own holds Wi before it and Wo after. -/
def regSeg {p : Fin 4} (Ln : Pipeline.LaunchFacts (nD := nD) (τ := τ) cfgs p)
  (Wi Wo : Dev nD → Valuation τ sig (Elt F))
  (hbody : ∀ c, Pipeline.BodyObligationLoose (pdats m ρ p c) (defs₀ (F := F)) 𝒱₀ () Set.univ)
  (hq : ∀ c w, (pdats m ρ p c).q w = fullShare)
  (howed : ∀ c t, (pdats m ρ p c).owed t = 0)
  (hrec : ∀ c, (pdats m ρ p c).recorded 0 = Set.univ)
  (hA : ∀ c w, (pdats m ρ p c).A w = Wi c (Proc.devRef .tc (Pipeline.arrRef (Pipeline.pin (pcfgs (F := F)) adm p).spec w)))
  (hΦi : ∀ c, (Pipeline.ΦA (Pipeline.pin (pcfgs (F := F)) adm p).spec c : sProp 𝕄) ⊢ (pdats m ρ p c).Φ 0)
  (hΦo : ∀ c, (pdats m ρ p c).Φ (Fin.last (Pipeline.pin (pcfgs (F := F)) adm p).N) ⊢ (Pipeline.ΦA (Pipeline.pin (pcfgs (F := F)) adm p).spec c : sProp 𝕄))
  (harr : ∀ c w, Wo c (Proc.devRef .tc (Pipeline.arrRef (Pipeline.pin (pcfgs (F := F)) adm p).spec w)) = (pdats m ρ p c).arrAt w (Pipeline.pin (pcfgs (F := F)) adm p).N)
  (hne : ∀ c (b : Ref sig .tc), (∀ w, Pipeline.arrRef (Pipeline.pin (pcfgs (F := F)) adm p).spec w ≠ b) → Wo c (Proc.devRef .tc b) = Wi c (Proc.devRef .tc b)) :
    Pipeline.RegionSeg (pcfgs (F := F)) adm (pdats m ρ) () defs₀ 𝒱₀ L lv p where
  win := Ln.win.to₀
  block_pos := Ln.block_pos
  stage_whole := Ln.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Wi c b)
  hentry c := by
    rw [Pipeline.ownSems0_none]
    have hsplit := Pipeline.arrays_of_unscopedBufs (p := p) (pcfgs (F := F)) adm (pdats m ρ) Ln.win Ln.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; exact Set.mem_univ _)
      iexact HO
    isplitl [Hp]; · iexact Hp
    iexact Hrest
  hin c := by
    iintro ⟨Hp, -, Hr⟩
    iapply (hΦi c)
    unfold Pipeline.ΦA
    isplitl [Hr]; · iexact Hr
    iexact Hp
  hout c := by
    rw [Pipeline.ownSems0_none]
    have hh := hΦo c
    unfold Pipeline.ΦA at hh
    iintro H
    ihave H' := hh $$ H
    icases H' with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      Ln.win Ln.arr_whole c (pdats m ρ) ((pdats m ρ p c).share_full (hq c))
      (fun b => Wi c b) (fun b => Wo c b) ((pdats m ρ p c).arrAt · (Pipeline.pin (pcfgs (F := F)) adm p).N) (fun w => (harr c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

def reg0 : Pipeline.RegionSeg (pcfgs (F := F)) adm (pdats m ρ) () defs₀ 𝒱₀ L lv 0 :=
  regSeg m ρ launch0 (W1 m ρ) (W2 m ρ) (fun c => (body_obligation0 (V1 m ρ) c).loose) (fun _ _ => rfl) (fun _ _ => rfl) (fun _ => rfl)
    (fun _ _ => rfl) (hin0 (V1 m ρ)) (hout0 (V1 m ρ)) (W2_arr m ρ) (W2_of_ne m ρ)
def reg1 : Pipeline.RegionSeg (pcfgs (F := F)) adm (pdats m ρ) () defs₀ 𝒱₀ L lv 1 :=
  regSeg m ρ launch1 (W2 m ρ) (W3 m ρ) (fun c => (body_obligation1 (V2 m ρ) c).loose) (fun _ _ => rfl) (fun _ _ => rfl) (fun _ => rfl)
    (fun _ _ => rfl) (hin1 (V2 m ρ)) (hout1 (V2 m ρ)) (W3_arr m ρ) (W3_of_ne m ρ)
def reg2 : Pipeline.RegionSeg (pcfgs (F := F)) adm (pdats m ρ) () defs₀ 𝒱₀ L lv 2 :=
  regSeg m ρ launch2 (W3 m ρ) (W4 m ρ) (fun c => (body_obligation2 (V3 m ρ) c).loose) (fun _ _ => rfl) (fun _ _ => rfl) (fun _ => rfl)
    (fun _ _ => rfl) (hin2 (V3 m ρ)) (hout2 (V3 m ρ)) (W4_arr m ρ) (W4_of_ne m ρ)
def reg3 : Pipeline.RegionSeg (pcfgs (F := F)) adm (pdats m ρ) () defs₀ 𝒱₀ L lv 3 :=
  regSeg m ρ launch3 (W4 m ρ) (W5 m ρ) (fun c => (body_obligation3 (V4 m ρ) c).loose) (fun _ _ => rfl) (fun _ _ => rfl) (fun _ => rfl)
    (fun _ _ => rfl) (hin3 (V4 m ρ)) (hout3 (V4 m ρ)) (W5_arr m ρ) (W5_of_ne m ρ)

theorem hostOps0_fresh' : (hostOps0 : List (HloOp τ sig (Elt F))).Forall fun op => op.fresh = ∅ := by
  simp only [List.Forall]; repeat' constructor
theorem hostOps4_fresh' : (hostOps4 : List (HloOp τ sig (Elt F))).Forall fun op => op.fresh = ∅ := by
  simp only [List.Forall]; repeat' constructor

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .region (reg2 m ρ),
    .region (reg3 m ρ),
    .host (hseg hostOps4 hostOps4_sub hostOps4_fresh' (W5 m ρ)) ]
theorem main_run (c : Dev nD) : main (F := F) c = Pipeline.Seg.run (segs m ρ) := (main_chain c).trans (by chain_rfl)

set_option backward.isDefEq.respectTransparency.types false in
/-- Every run of the program ends, without fault, with each buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => Idealize.SL.BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The arguments end as launched. -/
abbrev Kept (μ : (ℓ : Loc nD τ sig) → Buf (Elt F) ℓ) (c : Dev nD) : Prop :=
  μ ((c.tc : Thread nD τ).loc main_arg0) = m ((c.tc : Thread nD τ).loc main_arg0)
    ∧ μ ((c.tc : Thread nD τ).loc main_arg1) = m ((c.tc : Thread nD τ).loc main_arg1)
    ∧ μ ((c.tc : Thread nD τ).loc main_arg2) = m ((c.tc : Thread nD τ).loc main_arg2)
    ∧ μ ((c.tc : Thread nD τ).loc main_arg3) = m ((c.tc : Thread nD τ).loc main_arg3)
    ∧ μ ((c.tc : Thread nD τ).loc main_arg4) = m ((c.tc : Thread nD τ).loc main_arg4)
    ∧ μ ((c.tc : Thread nD τ).loc main_arg5) = m ((c.tc : Thread nD τ).loc main_arg5)
    ∧ μ ((c.tc : Thread nD τ).loc main_arg6) = m ((c.tc : Thread nD τ).loc main_arg6)
    ∧ μ ((c.tc : Thread nD τ).loc main_arg7) = m ((c.tc : Thread nD τ).loc main_arg7)

/-- A final memory holding every unscoped buffer at the last boundary's contents holds the arguments as launched. -/
theorem kept (μ : (ℓ : Loc nD τ sig) → Buf (Elt F) ℓ)
    (h : ∀ c : Dev nD, ∀ b ∈ Pipeline.ucRefs τ sig, μ (((c : Thread nD τ)).1, b) = W6 m ρ c b) (c : Dev nD) : Kept m μ c :=
  have k (b : Ref sig .tc) (hb : b ∈ args) : μ ((c.tc : Thread nD τ).loc b) = m ((c.tc : Thread nD τ).loc b) :=
    (h c _ (mem_uc b (args_kept b hb).2.2.2.2.2.2)).trans (W6_arg m ρ c b hb)
  ⟨k _ (by decide), k _ (by decide), k _ (by decide), k _ (by decide), k _ (by decide), k _ (by decide), k _ (by decide), k _ (by decide)⟩

theorem frame : θ_run defs (onTc (τ := τ) (main (F := F))) ⟨m, fun _ => 0, ρ⟩ (fun r => ∀ c : Dev nD, Kept m r.2.mem c) :=
  (θ_run defs _ _).mono (fun r h c => kept m ρ r.2.mem h c) (run_all m ρ)

end Cert.KernelIdeal.Regs

end
-- ==== Proof.Spec.lean ====
import Idealize.ShloMosaic.PureOps.Ideal
import Mathlib.Algebra.BigOperators.Fin
import Mathlib.Logic.Equiv.Fin.Basic

noncomputable section

open scoped BigOperators

namespace Cert.Spec

open Idealize.ShloMosaic

/-- (A · Bᵀ)[p, q] = Σ_k A[p, k] · B[q, k]. -/
def mmT {M N K : ℕ} (A : Fin M → Fin K → EReal) (B : Fin N → Fin K → EReal) : Fin M → Fin N → EReal :=
  fun p q => ∑ k : Fin K, A p k * B q k

def silu (z : EReal) : EReal := z * Ideal.logistic z

def convScale (X : Fin 8192 → Fin 4096 → EReal) (Cv : Fin 4096 → Fin 4096 → EReal) (D : Fin 4096 → EReal) :
    Fin 8192 → Fin 4096 → EReal := fun p q => mmT X Cv p q * D q

def gateZ (H : Fin 8192 → Fin 2048 → EReal) (Wz : Fin 4096 → Fin 2048 → EReal) : Fin 8192 → Fin 4096 → EReal :=
  fun p q => silu (mmT H Wz p q)

def gateOut (Y Z : Fin 8192 → Fin 4096 → EReal) (Wo : Fin 2048 → Fin 4096 → EReal) : Fin 8192 → Fin 2048 → EReal :=
  mmT (fun p k => Y p k * Z p k) Wo

/-- out = ((((H·Wxᵀ)·Cvᵀ) ∘ D) ∘ silu (H·Wzᵀ)) · Woᵀ, entry by entry on the extended reals. -/
def mixer (H : Fin 8192 → Fin 2048 → EReal) (Wx Wz : Fin 4096 → Fin 2048 → EReal) (Cv : Fin 4096 → Fin 4096 → EReal)
    (D : Fin 4096 → EReal) (Wo : Fin 2048 → Fin 4096 → EReal) : Fin 8192 → Fin 2048 → EReal :=
  gateOut (convScale (mmT H Wx) Cv D) (gateZ H Wz) Wo

def blockTerm {nb kb : ℕ} (b : Fin nb) (kk : Fin kb) : Fin (nb * kb) := finProdFinEquiv (b, kk)

theorem blockTerm_val {nb kb : ℕ} (b : Fin nb) (kk : Fin kb) : (blockTerm b kk).val = kk.val + kb * b.val := rfl

/-- A sum over nb·kb terms is the sum over nb blocks of kb terms. -/
theorem sum_blocks {nb kb : ℕ} (f : Fin (nb * kb) → EReal) :
    ∑ b : Fin nb, ∑ kk : Fin kb, f (blockTerm b kk) = ∑ k : Fin (nb * kb), f k := by
  unfold blockTerm
  rw [← finProdFinEquiv.sum_comp, Fintype.sum_prod_type]

theorem acc_four (s : Fin 4 → EReal) : (((0 + s 0) + s 1) + s 2) + s 3 = ∑ b : Fin 4, s b := by
  rw [Fin.sum_univ_four, zero_add]

/-- Four blocks added one after the other onto zero are the whole contraction. -/
theorem acc_blocks {M N kb : ℕ} (A : Fin M → Fin (4 * kb) → EReal) (B : Fin N → Fin (4 * kb) → EReal) (P : Fin M) (Q : Fin N)
    (s0 s1 s2 s3 : EReal)
    (h0 : s0 = 0 + ∑ kk : Fin kb, A P (blockTerm 0 kk) * B Q (blockTerm 0 kk))
    (h1 : s1 = s0 + ∑ kk : Fin kb, A P (blockTerm 1 kk) * B Q (blockTerm 1 kk))
    (h2 : s2 = s1 + ∑ kk : Fin kb, A P (blockTerm 2 kk) * B Q (blockTerm 2 kk))
    (h3 : s3 = s2 + ∑ kk : Fin kb, A P (blockTerm 3 kk) * B Q (blockTerm 3 kk)) :
    s3 = mmT A B P Q := by
  subst h0 h1 h2 h3
  rw [acc_four (fun b => ∑ kk : Fin kb, A P (blockTerm b kk) * B Q (blockTerm b kk))]
  exact sum_blocks (fun k => A P k * B Q k)

end Cert.Spec

end
-- ==== Proof.Args.lean ====
import proofs.«146748_j31610959298744_1_alg».proof.Proof.Spec
import Idealize.ShloMosaic.Lib.ValueIdx

noncomputable section

namespace Cert.Args

open Idealize.ShloMosaic Idealize.ShloMosaic.ValueIdx

/-- The tokens flattened: row 4096·b + s of the matrix is entry (b, s) of the array. -/
def rowsH (x0 : (⟨3, ![2, 4096, 2048]⟩ : Shape).Idx → EReal) : Fin 8192 → Fin 2048 → EReal :=
  fun r j => x0 (ix3 (⟨r.val / 4096, by have := r.isLt; omega⟩ : Fin 2) (⟨r.val % 4096, by omega⟩ : Fin 4096) j)

def projX (x1 : (⟨2, ![8192, 2048]⟩ : Shape).Idx → EReal) : Fin 4096 → Fin 2048 → EReal :=
  fun i j => x1 (ix2 (⟨i.val, by have := i.isLt; omega⟩ : Fin 8192) j)

def projZ (x1 : (⟨2, ![8192, 2048]⟩ : Shape).Idx → EReal) : Fin 4096 → Fin 2048 → EReal :=
  fun i j => x1 (ix2 (⟨4096 + i.val, by have := i.isLt; omega⟩ : Fin 8192) j)

def mat {a b : ℕ} (x : (⟨2, ![a, b]⟩ : Shape).Idx → EReal) : Fin a → Fin b → EReal := fun i j => x (ix2 i j)

def vec {a : ℕ} (x : (⟨1, ![a]⟩ : Shape).Idx → EReal) : Fin a → EReal := fun i => x (ix1 i)

def tokenRow (i : (⟨3, ![2, 4096, 2048]⟩ : Shape).Idx) : Fin 8192 :=
  ⟨4096 * (i 0).val + (i 1).val, by have h0 : (i 0).val < 2 := (i 0).isLt; have h1 : (i 1).val < 4096 := (i 1).isLt; omega⟩

/-- The mixer of the five arguments that reach the result, at the result's shape. -/
def result (x0 : (⟨3, ![2, 4096, 2048]⟩ : Shape).Idx → EReal) (x1 : (⟨2, ![8192, 2048]⟩ : Shape).Idx → EReal)
    (x2 : (⟨2, ![4096, 4096]⟩ : Shape).Idx → EReal) (x6 : (⟨1, ![4096]⟩ : Shape).Idx → EReal)
    (x7 : (⟨2, ![2048, 4096]⟩ : Shape).Idx → EReal) : (⟨3, ![2, 4096, 2048]⟩ : Shape).Idx → EReal :=
  fun i => Cert.Spec.mixer (rowsH x0) (projX x1) (projZ x1) (mat x2) (vec x6) (mat x7) (tokenRow i) (i 2)

end Cert.Args

end
-- ==== Proof.KI.HostVals.lean ====
import proofs.«146748_j31610959298744_1_alg».proof.Proof.KI.Launch
import proofs.«146748_j31610959298744_1_alg».proof.Proof.Args
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Regs

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The host operations around the regions as terms of their operands … -/
theorem e_v1 (c : Dev nD) :
    (V1 m ρ c main_v1 : S8192x2048.Idx → EReal)
      = (truncf (F := Ideal) .bf16 (shapeCast S8192x2048 (m ((c : Thread nD τ).loc main_arg0) : FVec Ideal S2x4096x2048 .f32) shapeCasts_S2x4096x2048_S8192x2048) bitsLt_bf16_f32 : FVec Ideal S8192x2048 .bf16) := by
  show StableHlo.after hostOps0 _ (Proc.devRef .tc main_v1) = _
  after_results
  rfl

theorem e_v3 (c : Dev nD) :
    (V1 m ρ c main_v3 : S4096x2048.Idx → EReal)
      = (truncf (F := Ideal) .bf16 (extractStridedSlice S4096x2048 ![0, 0] (m ((c : Thread nD τ).loc main_arg1) : FVec Ideal S8192x2048 .f32) slices_S8192x2048_S4096x2048_0_0) bitsLt_bf16_f32 : FVec Ideal S4096x2048 .bf16) := by
  show StableHlo.after hostOps0 _ (Proc.devRef .tc main_v3) = _
  after_results

theorem e_v5 (c : Dev nD) :
    (V1 m ρ c main_v5 : S4096x2048.Idx → EReal)
      = (truncf (F := Ideal) .bf16 (extractStridedSlice S4096x2048 ![4096, 0] (m ((c : Thread nD τ).loc main_arg1) : FVec Ideal S8192x2048 .f32) slices_S8192x2048_S4096x2048_4096_0) bitsLt_bf16_f32 : FVec Ideal S4096x2048 .bf16) := by
  show StableHlo.after hostOps0 _ (Proc.devRef .tc main_v5) = _
  after_results

theorem e_v6 (c : Dev nD) :
    (V1 m ρ c main_v6 : S4096x4096.Idx → EReal)
      = (truncf (F := Ideal) .bf16 (m ((c : Thread nD τ).loc main_arg2) : FVec Ideal S4096x4096 .f32) bitsLt_bf16_f32 : FVec Ideal S4096x4096 .bf16) := by
  show StableHlo.after hostOps0 _ (Proc.devRef .tc main_v6) = _
  after_results

theorem e_v7 (c : Dev nD) :
    (V1 m ρ c main_v7 : S2048x4096.Idx → EReal)
      = (truncf (F := Ideal) .bf16 (m ((c : Thread nD τ).loc main_arg7) : FVec Ideal S2048x4096 .f32) bitsLt_bf16_f32 : FVec Ideal S2048x4096 .bf16) := by
  show StableHlo.after hostOps0 _ (Proc.devRef .tc main_v7) = _
  after_results

theorem e_v8 (c : Dev nD) :
    (V1 m ρ c main_v8 : S1x4096.Idx → EReal)
      = (shapeCast S1x4096 (m ((c : Thread nD τ).loc main_arg6) : FVec Ideal S4096 .f32) shapeCasts_S4096_S1x4096 : FVec Ideal S1x4096 .f32) := by
  show StableHlo.after hostOps0 _ (Proc.devRef .tc main_v8) = _
  after_results
  rfl

theorem e_v13 (c : Dev nD) :
    (W6 m ρ c (Proc.devRef .tc main_v13) : S2x4096x2048.Idx → EReal)
      = (shapeCast S2x4096x2048 (W5 m ρ c (Proc.devRef .tc main_v12) : FVec Ideal S8192x2048 .f32) shapeCasts_S8192x2048_S2x4096x2048 : FVec Ideal S2x4096x2048 .f32) := by
  show StableHlo.after hostOps4 _ (Proc.devRef .tc main_v13) = _
  after_results
  rfl

/-- … and read at an index: reshapes and slices move indices, a change of float format does nothing. -/
theorem V1_main_v1 (c : Dev nD) :
    Cert.Args.mat (a := 8192) (b := 2048) (V1 m ρ c main_v1 : S8192x2048.Idx → EReal)
      = Cert.Args.rowsH (m ((c : Thread nD τ).loc main_arg0) : S2x4096x2048.Idx → EReal) := by
  funext r j
  have hr := r.isLt
  have hj := j.isLt
  unfold Cert.Args.mat Cert.Args.rowsH
  rw [e_v1, truncf_apply]
  refine shapeCast_apply (s := S2x4096x2048) (t := S8192x2048) _ _ _ _ ?_
  rw [Shape.rowMajor_val_three, Shape.rowMajor_val_two]
  show (r.val / 4096 * 4096 + r.val % 4096) * 2048 + j.val = r.val * 2048 + j.val
  omega

theorem V1_main_v3 (c : Dev nD) :
    Cert.Args.mat (a := 4096) (b := 2048) (V1 m ρ c main_v3 : S4096x2048.Idx → EReal)
      = Cert.Args.projX (m ((c : Thread nD τ).loc main_arg1) : S8192x2048.Idx → EReal) := by
  funext i j
  unfold Cert.Args.mat Cert.Args.projX
  rw [e_v3, truncf_apply]
  refine extractStridedSlice_apply _ _ _ _ _ fun a => ?_
  match a with
  | ⟨0, _⟩ => show i.val = 0 + i.val; omega
  | ⟨1, _⟩ => show j.val = 0 + j.val; omega

theorem V1_main_v5 (c : Dev nD) :
    Cert.Args.mat (a := 4096) (b := 2048) (V1 m ρ c main_v5 : S4096x2048.Idx → EReal)
      = Cert.Args.projZ (m ((c : Thread nD τ).loc main_arg1) : S8192x2048.Idx → EReal) := by
  funext i j
  unfold Cert.Args.mat Cert.Args.projZ
  rw [e_v5, truncf_apply]
  refine extractStridedSlice_apply _ _ _ _ _ fun a => ?_
  match a with
  | ⟨0, _⟩ => show 4096 + i.val = 4096 + i.val; rfl
  | ⟨1, _⟩ => show j.val = 0 + j.val; omega

theorem V1_main_v6 (c : Dev nD) :
    (V1 m ρ c main_v6 : S4096x4096.Idx → EReal) = (m ((c : Thread nD τ).loc main_arg2) : S4096x4096.Idx → EReal) := by
  rw [e_v6]
  rfl

theorem V1_main_v7 (c : Dev nD) :
    (V1 m ρ c main_v7 : S2048x4096.Idx → EReal) = (m ((c : Thread nD τ).loc main_arg7) : S2048x4096.Idx → EReal) := by
  rw [e_v7]
  rfl

theorem V1_main_v8 (c : Dev nD) (q : Fin 4096) :
    (V1 m ρ c main_v8 : S1x4096.Idx → EReal) (ix2 (0 : Fin 1) q) = Cert.Args.vec (a := 4096) (m ((c : Thread nD τ).loc main_arg6) : S4096.Idx → EReal) q := by
  rw [e_v8]
  exact shapeCast_a_1a_apply _ _ _ _

theorem W6_main_v13 (c : Dev nD) (i : S2x4096x2048.Idx) :
    (W6 m ρ c (Proc.devRef .tc main_v13) : S2x4096x2048.Idx → EReal) i
      = (W5 m ρ c (Proc.devRef .tc main_v12) : S8192x2048.Idx → EReal) (ix2 (Cert.Args.tokenRow i) (i 2)) := by
  rw [e_v13]
  refine shapeCast_apply (s := S8192x2048) (t := S2x4096x2048) _ _ _ _ ?_
  rw [Shape.rowMajor_val_three, Shape.rowMajor_val_two]
  show (4096 * (i 0).val + (i 1).val) * 2048 + (i 2).val = ((i 0).val * 4096 + (i 1).val) * 2048 + (i 2).val
  omega

end Cert.KernelIdeal.Regs

end
-- ==== Proof.LibRowLayers.lean ====
import Idealize.ShloMosaic.PureOps.Ideal.Laws
import Idealize.ShloMosaic.Lib.ValueIdx

noncomputable section

open scoped BigOperators

namespace RowLayers

open Idealize.ShloMosaic Idealize.ShloMosaic.ValueIdx

variable {m k n : ℕ}

/-- Entry (a, b) of A · Bᵀ added to zero is the sum over c of A[a,c] · B[b,c]. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

end RowLayers

end
-- ==== Proof.KI.R0Value.lean ====
import proofs.«146748_j31610959298744_1_alg».proof.Proof.KI.R0Data
import proofs.«146748_j31610959298744_1_alg».proof.Proof.LibRowLayers
import proofs.«146748_j31610959298744_1_alg».proof.Proof.Args
import Idealize.ShloMosaic.Lib.Pipeline.Value
import Idealize.ShloMosaic.Lib.ValueIdx
import Idealize.ShloMosaic.Lib.ValueLayout

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz2 : (![0, 0] : Fin 2 → Nat) = fun _ => 0 := funext fun a => by fin_cases a <;> rfl

section
variable (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole)

/-- What a step's stores leave is the step's payload of the blocks it loaded. -/
theorem sout0_A_eq (hc0 : cond0_0 i) (hc1 : ¬cond0_1 i)
    (x0 : Vec F S1024x512 .bf16) (x1 : Vec F S512x512 .bf16) :
    sout0_A c i arg3 harg3 arg4 harg4 arg5 harg5 arg6 harg6 hc0 hc1 x0 x1 = k0_pay2 (k0_pay1 (F := F)) x0 x1 := by
  unfold sout0_A
  rw [View.read_writes_eq_canon _ _ _ (scover0_A c i arg3 harg3 arg4 harg4 arg5 harg5 arg6 harg6 hc0 hc1 x0 x1)]
  unfold kernelRun0_A
  dsimp only
  try sl_unfold_words
  rw [View.canon_cons_unit_zero (S := S1024x512) hz2, View.readCov_unit_zero (S := S1024x512) _ hz2]
  simp only [View.readAt_eq_ld, harg3.read_unread, harg4.read_unread, harg6.read_unread, View.ld_unit_zero (S := S1024x512) hz2, View.ld_unit_zero (S := S512x512) hz2]

theorem sout0_B_eq (hc0 : ¬cond0_0 i) (hc1 : ¬cond0_1 i)
    (x0 : Vec F S1024x512 .bf16) (x1 : Vec F S512x512 .bf16) (xs : Vec F S1024x512 .f32) :
    sout0_B c i arg3 harg3 arg4 harg4 arg5 harg5 arg6 harg6 hc0 hc1 x0 x1 xs = k0_pay2 xs x0 x1 := by
  unfold sout0_B
  rw [View.read_writes_eq_canon _ _ _ (scover0_B c i arg3 harg3 arg4 harg4 arg5 harg5 arg6 harg6 hc0 hc1 x0 x1 xs)]
  unfold kernelRun0_B
  dsimp only
  try sl_unfold_words
  rw [View.canon_unit_zero hz2]
  simp only [View.readAt_eq_ld, harg3.read_unread, harg4.read_unread, harg6.read_unread, View.ld_unit_zero (S := S1024x512) hz2, View.ld_unit_zero (S := S512x512) hz2]

theorem sout0_C_eq (hc0 : ¬cond0_0 i) (hc1 : cond0_1 i)
    (x0 : Vec F S1024x512 .bf16) (x1 : Vec F S512x512 .bf16) (xs : Vec F S1024x512 .f32) :
    sout0_C c i arg3 harg3 arg4 harg4 arg5 harg5 arg6 harg6 hc0 hc1 x0 x1 xs = k0_pay2 xs x0 x1 := by
  unfold sout0_C
  rw [View.read_writes_eq_canon _ _ _ (scover0_C c i arg3 harg3 arg4 harg4 arg5 harg5 arg6 harg6 hc0 hc1 x0 x1 xs)]
  unfold kernelRun0_C
  dsimp only
  try sl_unfold_words
  rw [View.canon_unit_zero hz2]
  simp only [View.readAt_eq_ld, harg3.read_unread, harg4.read_unread, harg6.read_unread, View.ld_unit_zero (S := S1024x512) hz2, View.ld_unit_zero (S := S512x512) hz2]

theorem out0_C_eq (hc0 : ¬cond0_0 i) (hc1 : cond0_1 i)
    (x0 : Vec F S1024x512 .bf16) (x1 : Vec F S512x512 .bf16) (xs : Vec F S1024x512 .f32) :
    out0_C c i arg3 harg3 arg4 harg4 arg5 harg5 arg6 harg6 hc0 hc1 x0 x1 xs = k0_pay3 (k0_pay2 xs x0 x1) := by
  unfold out0_C
  rw [View.read_writes_eq_canon _ _ _ (cover0_C c i arg3 harg3 arg4 harg4 arg5 harg5 arg6 harg6 hc0 hc1 x0 x1 xs)]
  unfold kernelRun0_C
  dsimp only
  try sl_unfold_words
  rw [View.canon_unit_zero hz2, View.readCov_unit_zero (S := S1024x512) _ hz2]
  simp only [View.readAt_eq_ld, harg3.read_unread, harg4.read_unread, harg6.read_unread, View.ld_unit_zero (S := S1024x512) hz2, View.ld_unit_zero (S := S512x512) hz2]

end

section
variable (V : (c : Dev nD) → (b : Ref sig .tc) → Buf (Elt F) ((c : Thread nD τ).loc b))

abbrev lblk0 (c : Dev nD) (t : Fin cfg0.N) : Vec F S1024x512 .bf16 := iblk0 V c 0 t
abbrev rblk0 (c : Dev nD) (t : Fin cfg0.N) : Vec F S512x512 .bf16 := iblk0 V c 1 t
abbrev larr0 (c : Dev nD) : Vec F S8192x2048 .bf16 := V c main_v1
abbrev rarr0 (c : Dev nD) : Vec F S4096x2048 .bf16 := V c main_v3
abbrev acc0 (c : Dev nD) (n : ℕ) (hn : n < cfg0.N) : Vec F S1024x512 .f32 := (outsAt0 V c n hn).2
abbrev obuf0 (c : Dev nD) (n : ℕ) (hn : n < cfg0.N) : Vec F S1024x512 .bf16 := (outsAt0 V c n hn).1

/-- The running sum point by point: a first step adds its block product to zero, a later one to what the point before left. -/
theorem acc0_first (c : Dev nD) (n : ℕ) (hn : n < cfg0.N) (h0 : n % 4 = 0) :
    acc0 V c n hn = k0_pay2 (k0_pay1 (F := F)) (lblk0 V c ⟨n, hn⟩) (rblk0 V c ⟨n, hn⟩) := by
  have e := outsAt0_A V c ⟨n, hn⟩ h0 (by show ¬n % 4 = 3; omega)
  show (outsAt0 V c n hn).2 = _
  rw [e]
  dsimp only [ptA0]
  exact sout0_A_eq ..

theorem acc0_step (c : Dev nD) (n : ℕ) (hn : n + 1 < cfg0.N) (h0 : ¬(n + 1) % 4 = 0) :
    acc0 V c (n + 1) hn = k0_pay2 (acc0 V c n (Nat.lt_of_succ_lt hn)) (lblk0 V c ⟨n + 1, hn⟩) (rblk0 V c ⟨n + 1, hn⟩) := by
  show (outsAt0 V c (n + 1) hn).2 = _
  by_cases h1 : (n + 1) % 4 = 3
  · have e := outsAt0_C V c ⟨n + 1, hn⟩ h0 h1
    rw [e]
    dsimp only [ptC0]
    exact sout0_C_eq ..
  · have e := outsAt0_B V c ⟨n + 1, hn⟩ h0 h1
    rw [e]
    dsimp only [ptB0]
    exact sout0_B_eq ..

theorem obuf0_last (c : Dev nD) (n : ℕ) (hn : n < cfg0.N) (h1 : n % 4 = 3) :
    obuf0 V c n hn = k0_pay3 (acc0 V c n hn) := by
  have e := outsAt0_C V c ⟨n, hn⟩ (by show ¬n % 4 = 0; omega) h1
  show (outsAt0 V c n hn).1 = k0_pay3 (outsAt0 V c n hn).2
  rw [e]
  dsimp only [ptC0]
  rw [sout0_C_eq ..]
  exact out0_C_eq ..

/-- The windows' block indices at a point, decided over the whole grid. -/
theorem idx0 : ∀ t : Fin cfg0.N, win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = t.val / 32 ∧ win0_2.index t (1 : Fin 2) = t.val / 4 % 8 :=
  (by decide +kernel : ∀ t : Fin grid0.N, _)

theorem lblk0_apply (c : Dev nD) (t : Fin cfg0.N) (x : S1024x512.Idx) (k : S8192x2048.Idx)
    (hk0 : (k 0).val = 1024 * (t.val / 32) + (x 0).val) (hk1 : (k 1).val = 512 * (t.val % 4) + (x 1).val) :
    lblk0 V c t x = larr0 V c k := by
  obtain ⟨e0, e1, -, -, -, -⟩ := idx0 t
  show iblk0 V c 0 t x = V c main_v1 k
  unfold iblk0
  rw [View.read_apply]
  show V c main_v1 _ = V c main_v1 _
  congr 1
  funext a
  apply Fin.ext
  match a with
  | ⟨0, _⟩ => show win0_0.index t 0 * 1024 + 1 * (x 0).val = (k 0).val; rw [e0, hk0]; omega
  | ⟨1, _⟩ => show win0_0.index t 1 * 512 + 1 * (x 1).val = (k 1).val; rw [e1, hk1]; omega

theorem rblk0_apply (c : Dev nD) (t : Fin cfg0.N) (x : S512x512.Idx) (k : S4096x2048.Idx)
    (hk0 : (k 0).val = 512 * (t.val / 4 % 8) + (x 0).val) (hk1 : (k 1).val = 512 * (t.val % 4) + (x 1).val) :
    rblk0 V c t x = rarr0 V c k := by
  obtain ⟨-, -, e0, e1, -, -⟩ := idx0 t
  show iblk0 V c 1 t x = V c main_v3 k
  unfold iblk0
  rw [View.read_apply]
  show V c main_v3 _ = V c main_v3 _
  congr 1
  funext a
  apply Fin.ext
  match a with
  | ⟨0, _⟩ => show win0_1.index t 0 * 512 + 1 * (x 0).val = (k 0).val; rw [e0, hk0]; omega
  | ⟨1, _⟩ => show win0_1.index t 1 * 512 + 1 * (x 1).val = (k 1).val; rw [e1, hk1]; omega

end

theorem pay0_1_apply (i : S1024x512.Idx) : (k0_pay1 (F := Ideal)) i = 0 := by
  unfold k0_pay1
  simp only [shapeCast_self]
  exact Ideal.ofBits_zero_f32

/-- The step's payload at (p, q): the running sum plus row p of the left block against row q of the right one. -/
theorem pay0_2_apply (v3 : Vec Ideal S1024x512 .f32) (v4 : Vec Ideal S1024x512 .bf16) (v6 : Vec Ideal S512x512 .bf16)
    (p : Fin 1024) (q : Fin 512) :
    k0_pay2 v3 v4 v6 (ix2 p q) = v3 (ix2 p q) + ∑ kk : Fin 512, v4 (ix2 p kk) * v6 (ix2 q kk) := by
  unfold k0_pay2
  simp only [shapeCast_self]
  rw [addf_apply]
  exact congrArg (v3 (ix2 p q) + ·) (RowLayers.matmulT_apply (m := 1024) (k := 512) (n := 512) none v4 v6 p q)

theorem pay0_3_apply (v : Vec Ideal S1024x512 .f32) (i : S1024x512.Idx) : k0_pay3 v i = v i := rfl

section
variable (V : (c : Dev nD) → (b : Ref sig .tc) → Buf (Elt Ideal) ((c : Thread nD τ).loc b))

abbrev lmat0 (c : Dev nD) : Fin 8192 → Fin 2048 → EReal := Cert.Args.mat (a := 8192) (b := 2048) (larr0 V c)
abbrev rmat0 (c : Dev nD) : Fin 4096 → Fin 2048 → EReal := Cert.Args.mat (a := 4096) (b := 2048) (rarr0 V c)

/-- One step's terms are block r of the contraction of row P of the left array against row Q of the right one. -/
theorem step0_terms (c : Dev nD) (n : ℕ) (hn : n < cfg0.N) (r : Fin 4) (hr : n % 4 = r.val) (p : Fin 1024) (q : Fin 512)
    (P : Fin 8192) (Q : Fin 4096) (hP : P.val = 1024 * (n / 32) + p.val) (hQ : Q.val = 512 * (n / 4 % 8) + q.val) :
    ∑ kk : Fin 512, lblk0 V c ⟨n, hn⟩ (ix2 p kk) * rblk0 V c ⟨n, hn⟩ (ix2 q kk)
      = ∑ kk : Fin 512, lmat0 V c P (Cert.Spec.blockTerm (nb := 4) (kb := 512) r kk) * rmat0 V c Q (Cert.Spec.blockTerm (nb := 4) (kb := 512) r kk) := by
  refine Finset.sum_congr rfl fun kk _ => ?_
  have hkk : (Cert.Spec.blockTerm (nb := 4) (kb := 512) r kk).val = kk.val + 512 * r.val := Cert.Spec.blockTerm_val r kk
  rw [lblk0_apply V c ⟨n, hn⟩ (ix2 p kk) (ix2 P (Cert.Spec.blockTerm (nb := 4) (kb := 512) r kk)) (by show P.val = 1024 * (n / 32) + p.val; exact hP)
      (by show (Cert.Spec.blockTerm (nb := 4) (kb := 512) r kk).val = 512 * (n % 4) + kk.val; rw [hkk, hr]; omega),
    rblk0_apply V c ⟨n, hn⟩ (ix2 q kk) (ix2 Q (Cert.Spec.blockTerm (nb := 4) (kb := 512) r kk)) (by show Q.val = 512 * (n / 4 % 8) + q.val; exact hQ)
      (by show (Cert.Spec.blockTerm (nb := 4) (kb := 512) r kk).val = 512 * (n % 4) + kk.val; rw [hkk, hr]; omega)]
  rfl

theorem obuf0_tile (c : Dev nD) (b : ℕ) (hb : b + 3 < cfg0.N) (h4 : b % 4 = 0) (p : Fin 1024) (q : Fin 512)
    (P : Fin 8192) (Q : Fin 4096) (hP : P.val = 1024 * (b / 32) + p.val) (hQ : Q.val = 512 * (b / 4 % 8) + q.val) :
    obuf0 V c (b + 3) hb (ix2 p q) = Cert.Spec.mmT (lmat0 V c) (rmat0 V c) P Q := by
  have hb0 : b < cfg0.N := by omega
  have hb1 : b + 1 < cfg0.N := by omega
  have hb2 : b + 2 < cfg0.N := by omega
  rw [obuf0_last V c (b + 3) hb (by omega), pay0_3_apply]
  refine Cert.Spec.acc_blocks (kb := 512) (lmat0 V c) (rmat0 V c) P Q
    (acc0 V c b hb0 (ix2 p q)) (acc0 V c (b + 1) hb1 (ix2 p q)) (acc0 V c (b + 2) hb2 (ix2 p q)) (acc0 V c (b + 3) hb (ix2 p q)) ?_ ?_ ?_ ?_
  · rw [acc0_first V c b hb0 h4, pay0_2_apply, pay0_1_apply]
    exact congrArg (fun s : EReal => 0 + s) (step0_terms V c b hb0 0 (by show b % 4 = 0; exact h4) p q P Q hP hQ)
  · rw [acc0_step V c b hb1 (by omega), pay0_2_apply]
    exact congrArg (fun s : EReal => acc0 V c b hb0 (ix2 p q) + s) (step0_terms V c (b + 1) hb1 1 (by show (b + 1) % 4 = 1; omega) p q P Q (by rw [hP]; omega) (by rw [hQ]; omega))
  · rw [acc0_step V c (b + 1) hb2 (by omega), pay0_2_apply]
    exact congrArg (fun s : EReal => acc0 V c (b + 1) hb1 (ix2 p q) + s) (step0_terms V c (b + 2) hb2 2 (by show (b + 2) % 4 = 2; omega) p q P Q (by rw [hP]; omega) (by rw [hQ]; omega))
  · rw [acc0_step V c (b + 2) hb (by omega), pay0_2_apply]
    exact congrArg (fun s : EReal => acc0 V c (b + 2) hb2 (ix2 p q) + s) (step0_terms V c (b + 3) hb 3 (by show (b + 3) % 4 = 3; omega) p q P Q (by rw [hP]; omega) (by rw [hQ]; omega))

end

section
variable (V : (c : Dev nD) → (b : Ref sig .tc) → Buf (Elt Ideal) ((c : Thread nD τ).loc b))

abbrev prod0 (c : Dev nD) : Vec Ideal S8192x4096 .bf16 := fun i => Cert.Spec.mmT (lmat0 V c) (rmat0 V c) (i 0) (i 1)

/-- What a last step writes back is its block of the array claimed below. -/
theorem flushed0 (c : Dev nD) (t : Fin cfg0.N) (hf : (cfg0.win 2).flush t = true) :
    (dat0 V c).flushed 2 t = ((cfg0.win 2).blk t).view.read (Elt Ideal) (prod0 V c) := by
  have h3 : t.val % 4 = 3 := (flush0_2 t).mp hf
  obtain ⟨-, -, -, -, e0, e1⟩ := idx0 t
  show (cfg0.win 2).cut (grid0.coords t) ((dat0 V c).after 2 t) = _
  rw [after0_2]
  funext y
  obtain ⟨p, q, rfl⟩ : ∃ (p : Fin 1024) (q : Fin 512), y = ix2 p q := ⟨y 0, y 1, eq_ix2 y⟩
  show obuf0 V c t.val t.isLt (ix2 p q) = prod0 V c (((cfg0.win 2).blk t).view.emb (ix2 p q))
  obtain ⟨n, hn⟩ := t
  obtain ⟨b, rfl⟩ : ∃ b, n = b + 3 := ⟨n - 3, by have : n % 4 = 3 := h3; omega⟩
  have h3' : (b + 3) % 4 = 3 := h3
  have e0' : win0_2.index ⟨b + 3, hn⟩ (0 : Fin 2) = (b + 3) / 32 := e0
  have e1' : win0_2.index ⟨b + 3, hn⟩ (1 : Fin 2) = (b + 3) / 4 % 8 := e1
  exact obuf0_tile V c b hn (by omega) p q _ _
    (by show win0_2.index ⟨b + 3, hn⟩ (0 : Fin 2) * 1024 + 1 * p.val = 1024 * (b / 32) + p.val; rw [e0']; omega)
    (by show win0_2.index ⟨b + 3, hn⟩ (1 : Fin 2) * 512 + 1 * q.val = 512 * (b / 4 % 8) + q.val; rw [e1']; omega)

theorem mem_blk0 (t : Fin cfg0.N) (i : S8192x4096.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v9).slice (win0_2.rect t)).set ↔ _
  rw [View.set_slice_whole, Rect.mem_set_unit]
  exact Iff.rfl

/-- The array the region leaves: the written blocks cover it. -/
theorem final0 (c : Dev nD) : (dat0 V c).arrAt 2 cfg0.N = prod0 V c :=
  (dat0 V c).arrAt_eq_of_cover 2 (prod0 V c) (fun t hf => flushed0 V c t hf) fun i => by
    have hi0 : (i 0).val < 8192 := (i 0).isLt
    have hi1 : (i 1).val < 4096 := (i 1).isLt
    have hN : cfg0.N = 256 := N_0
    refine ⟨⟨32 * ((i 0).val / 1024) + 4 * ((i 1).val / 512) + 3, by omega⟩, (flush0_2 _).mpr (by show (32 * ((i 0).val / 1024) + 4 * ((i 1).val / 512) + 3) % 4 = 3; omega), ?_⟩
    rw [mem_blk0]
    obtain ⟨-, -, -, -, e0, e1⟩ := idx0 ⟨32 * ((i 0).val / 1024) + 4 * ((i 1).val / 512) + 3, by omega⟩
    intro a
    match a with
    | ⟨0, _⟩ => show win0_2.index _ (0 : Fin 2) * 1024 ≤ (i 0).val ∧ (i 0).val < win0_2.index _ (0 : Fin 2) * 1024 + 1024; rw [e0]; show (32 * ((i 0).val / 1024) + 4 * ((i 1).val / 512) + 3) / 32 * 1024 ≤ _ ∧ _ < (32 * ((i 0).val / 1024) + 4 * ((i 1).val / 512) + 3) / 32 * 1024 + 1024; omega
    | ⟨1, _⟩ => show win0_2.index _ (1 : Fin 2) * 512 ≤ (i 1).val ∧ (i 1).val < win0_2.index _ (1 : Fin 2) * 512 + 512; rw [e1]; show (32 * ((i 0).val / 1024) + 4 * ((i 1).val / 512) + 3) / 4 % 8 * 512 ≤ _ ∧ _ < (32 * ((i 0).val / 1024) + 4 * ((i 1).val / 512) + 3) / 4 % 8 * 512 + 512; omega

end

end Cert.KernelIdeal.Regs

end
-- ==== Proof.KI.R1Value.lean ====
import proofs.«146748_j31610959298744_1_alg».proof.Proof.KI.R1Data
import proofs.«146748_j31610959298744_1_alg».proof.Proof.LibRowLayers
import proofs.«146748_j31610959298744_1_alg».proof.Proof.Args
import Idealize.ShloMosaic.Lib.Pipeline.Value
import Idealize.ShloMosaic.Lib.ValueIdx
import Idealize.ShloMosaic.Lib.ValueLayout

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (V : (c : Dev nD) → (b : Ref sig .tc) → Buf (Elt F) ((c : Thread nD τ).loc b))
abbrev larr1 (c : Dev nD) : Vec F S8192x2048 .bf16 := V c main_v1
abbrev rarr1 (c : Dev nD) : Vec F S4096x2048 .bf16 := V c main_v5
end

theorem hz2_1 : (![0, 0] : Fin 2 → Nat) = fun _ => 0 := funext fun a => by fin_cases a <;> rfl

section
variable (c : Dev nD) (i : grid1.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole)

/-- What a step's stores leave is the step's payload of the blocks it loaded. -/
theorem sout1_A_eq (hc0 : cond1_0 i) (hc1 : ¬cond1_1 i)
    (x0 : Vec F S1024x512 .bf16) (x1 : Vec F S512x512 .bf16) :
    sout1_A c i arg3 harg3 arg4 harg4 arg5 harg5 arg6 harg6 hc0 hc1 x0 x1 = k1_pay2 (k1_pay1 (F := F)) x0 x1 := by
  unfold sout1_A
  rw [View.read_writes_eq_canon _ _ _ (scover1_A c i arg3 harg3 arg4 harg4 arg5 harg5 arg6 harg6 hc0 hc1 x0 x1)]
  unfold kernelRun1_A
  dsimp only
  try sl_unfold_words
  rw [View.canon_cons_unit_zero (S := S1024x512) hz2_1, View.readCov_unit_zero (S := S1024x512) _ hz2_1]
  simp only [View.readAt_eq_ld, harg3.read_unread, harg4.read_unread, harg6.read_unread, View.ld_unit_zero (S := S1024x512) hz2_1, View.ld_unit_zero (S := S512x512) hz2_1]

theorem sout1_B_eq (hc0 : ¬cond1_0 i) (hc1 : ¬cond1_1 i)
    (x0 : Vec F S1024x512 .bf16) (x1 : Vec F S512x512 .bf16) (xs : Vec F S1024x512 .f32) :
    sout1_B c i arg3 harg3 arg4 harg4 arg5 harg5 arg6 harg6 hc0 hc1 x0 x1 xs = k1_pay2 xs x0 x1 := by
  unfold sout1_B
  rw [View.read_writes_eq_canon _ _ _ (scover1_B c i arg3 harg3 arg4 harg4 arg5 harg5 arg6 harg6 hc0 hc1 x0 x1 xs)]
  unfold kernelRun1_B
  dsimp only
  try sl_unfold_words
  rw [View.canon_unit_zero hz2_1]
  simp only [View.readAt_eq_ld, harg3.read_unread, harg4.read_unread, harg6.read_unread, View.ld_unit_zero (S := S1024x512) hz2_1, View.ld_unit_zero (S := S512x512) hz2_1]

theorem sout1_C_eq (hc0 : ¬cond1_0 i) (hc1 : cond1_1 i)
    (x0 : Vec F S1024x512 .bf16) (x1 : Vec F S512x512 .bf16) (xs : Vec F S1024x512 .f32) :
    sout1_C c i arg3 harg3 arg4 harg4 arg5 harg5 arg6 harg6 hc0 hc1 x0 x1 xs = k1_pay2 xs x0 x1 := by
  unfold sout1_C
  rw [View.read_writes_eq_canon _ _ _ (scover1_C c i arg3 harg3 arg4 harg4 arg5 harg5 arg6 harg6 hc0 hc1 x0 x1 xs)]
  unfold kernelRun1_C
  dsimp only
  try sl_unfold_words
  rw [View.canon_unit_zero hz2_1]
  simp only [View.readAt_eq_ld, harg3.read_unread, harg4.read_unread, harg6.read_unread, View.ld_unit_zero (S := S1024x512) hz2_1, View.ld_unit_zero (S := S512x512) hz2_1]

theorem out1_C_eq (hc0 : ¬cond1_0 i) (hc1 : cond1_1 i)
    (x0 : Vec F S1024x512 .bf16) (x1 : Vec F S512x512 .bf16) (xs : Vec F S1024x512 .f32) :
    out1_C c i arg3 harg3 arg4 harg4 arg5 harg5 arg6 harg6 hc0 hc1 x0 x1 xs = k1_pay3 (k1_pay2 xs x0 x1) := by
  unfold out1_C
  rw [View.read_writes_eq_canon _ _ _ (cover1_C c i arg3 harg3 arg4 harg4 arg5 harg5 arg6 harg6 hc0 hc1 x0 x1 xs)]
  unfold kernelRun1_C
  dsimp only
  try sl_unfold_words
  rw [View.canon_unit_zero hz2_1, View.readCov_unit_zero (S := S1024x512) _ hz2_1]
  simp only [View.readAt_eq_ld, harg3.read_unread, harg4.read_unread, harg6.read_unread, View.ld_unit_zero (S := S1024x512) hz2_1, View.ld_unit_zero (S := S512x512) hz2_1]

end

section
variable (V : (c : Dev nD) → (b : Ref sig .tc) → Buf (Elt F) ((c : Thread nD τ).loc b))

abbrev lblk1 (c : Dev nD) (t : Fin cfg1.N) : Vec F S1024x512 .bf16 := iblk1 V c 0 t
abbrev rblk1 (c : Dev nD) (t : Fin cfg1.N) : Vec F S512x512 .bf16 := iblk1 V c 1 t
abbrev acc1 (c : Dev nD) (n : ℕ) (hn : n < cfg1.N) : Vec F S1024x512 .f32 := (outsAt1 V c n hn).2
abbrev obuf1 (c : Dev nD) (n : ℕ) (hn : n < cfg1.N) : Vec F S1024x512 .bf16 := (outsAt1 V c n hn).1

/-- The running sum point by point: a first step adds its block product to zero, a later one to what the point before left. -/
theorem acc1_first (c : Dev nD) (n : ℕ) (hn : n < cfg1.N) (h0 : n % 4 = 0) :
    acc1 V c n hn = k1_pay2 (k1_pay1 (F := F)) (lblk1 V c ⟨n, hn⟩) (rblk1 V c ⟨n, hn⟩) := by
  have e := outsAt1_A V c ⟨n, hn⟩ h0 (by show ¬n % 4 = 3; omega)
  show (outsAt1 V c n hn).2 = _
  rw [e]
  dsimp only [ptA1]
  exact sout1_A_eq ..

theorem acc1_step (c : Dev nD) (n : ℕ) (hn : n + 1 < cfg1.N) (h0 : ¬(n + 1) % 4 = 0) :
    acc1 V c (n + 1) hn = k1_pay2 (acc1 V c n (Nat.lt_of_succ_lt hn)) (lblk1 V c ⟨n + 1, hn⟩) (rblk1 V c ⟨n + 1, hn⟩) := by
  show (outsAt1 V c (n + 1) hn).2 = _
  by_cases h1 : (n + 1) % 4 = 3
  · have e := outsAt1_C V c ⟨n + 1, hn⟩ h0 h1
    rw [e]
    dsimp only [ptC1]
    exact sout1_C_eq ..
  · have e := outsAt1_B V c ⟨n + 1, hn⟩ h0 h1
    rw [e]
    dsimp only [ptB1]
    exact sout1_B_eq ..

theorem obuf1_last (c : Dev nD) (n : ℕ) (hn : n < cfg1.N) (h1 : n % 4 = 3) :
    obuf1 V c n hn = k1_pay3 (acc1 V c n hn) := by
  have e := outsAt1_C V c ⟨n, hn⟩ (by show ¬n % 4 = 0; omega) h1
  show (outsAt1 V c n hn).1 = k1_pay3 (outsAt1 V c n hn).2
  rw [e]
  dsimp only [ptC1]
  rw [sout1_C_eq ..]
  exact out1_C_eq ..

/-- The windows' block indices at a point, decided over the whole grid. -/
theorem idx1 : ∀ t : Fin cfg1.N, win1_0.index t (0 : Fin 2) = t.val / 32 ∧ win1_0.index t (1 : Fin 2) = t.val % 4
    ∧ win1_1.index t (0 : Fin 2) = t.val / 4 % 8 ∧ win1_1.index t (1 : Fin 2) = t.val % 4
    ∧ win1_2.index t (0 : Fin 2) = t.val / 32 ∧ win1_2.index t (1 : Fin 2) = t.val / 4 % 8 :=
  (by decide +kernel : ∀ t : Fin grid1.N, _)

theorem lblk1_apply (c : Dev nD) (t : Fin cfg1.N) (x : S1024x512.Idx) (k : S8192x2048.Idx)
    (hk0 : (k 0).val = 1024 * (t.val / 32) + (x 0).val) (hk1 : (k 1).val = 512 * (t.val % 4) + (x 1).val) :
    lblk1 V c t x = larr1 V c k := by
  obtain ⟨e0, e1, -, -, -, -⟩ := idx1 t
  show iblk1 V c 0 t x = V c main_v1 k
  unfold iblk1
  rw [View.read_apply]
  show V c main_v1 _ = V c main_v1 _
  congr 1
  funext a
  apply Fin.ext
  match a with
  | ⟨0, _⟩ => show win1_0.index t 0 * 1024 + 1 * (x 0).val = (k 0).val; rw [e0, hk0]; omega
  | ⟨1, _⟩ => show win1_0.index t 1 * 512 + 1 * (x 1).val = (k 1).val; rw [e1, hk1]; omega

theorem rblk1_apply (c : Dev nD) (t : Fin cfg1.N) (x : S512x512.Idx) (k : S4096x2048.Idx)
    (hk0 : (k 0).val = 512 * (t.val / 4 % 8) + (x 0).val) (hk1 : (k 1).val = 512 * (t.val % 4) + (x 1).val) :
    rblk1 V c t x = rarr1 V c k := by
  obtain ⟨-, -, e0, e1, -, -⟩ := idx1 t
  show iblk1 V c 1 t x = V c main_v5 k
  unfold iblk1
  rw [View.read_apply]
  show V c main_v5 _ = V c main_v5 _
  congr 1
  funext a
  apply Fin.ext
  match a with
  | ⟨0, _⟩ => show win1_1.index t 0 * 512 + 1 * (x 0).val = (k 0).val; rw [e0, hk0]; omega
  | ⟨1, _⟩ => show win1_1.index t 1 * 512 + 1 * (x 1).val = (k 1).val; rw [e1, hk1]; omega

end

theorem pay1_1_apply (i : S1024x512.Idx) : (k1_pay1 (F := Ideal)) i = 0 := by
  unfold k1_pay1
  simp only [shapeCast_self]
  exact Ideal.ofBits_zero_f32

/-- The step's payload at (p, q): the running sum plus row p of the left block against row q of the right one. -/
theorem pay1_2_apply (v3 : Vec Ideal S1024x512 .f32) (v4 : Vec Ideal S1024x512 .bf16) (v6 : Vec Ideal S512x512 .bf16)
    (p : Fin 1024) (q : Fin 512) :
    k1_pay2 v3 v4 v6 (ix2 p q) = v3 (ix2 p q) + ∑ kk : Fin 512, v4 (ix2 p kk) * v6 (ix2 q kk) := by
  unfold k1_pay2
  simp only [shapeCast_self]
  rw [addf_apply]
  exact congrArg (v3 (ix2 p q) + ·) (RowLayers.matmulT_apply (m := 1024) (k := 512) (n := 512) none v4 v6 p q)

theorem pay1_3_apply (v : Vec Ideal S1024x512 .f32) (i : S1024x512.Idx) : k1_pay3 v i = Cert.Spec.silu (v i) := rfl

section
variable (V : (c : Dev nD) → (b : Ref sig .tc) → Buf (Elt Ideal) ((c : Thread nD τ).loc b))
abbrev lmat1 (c : Dev nD) : Fin 8192 → Fin 2048 → EReal := Cert.Args.mat (a := 8192) (b := 2048) (larr1 V c)
abbrev rmat1 (c : Dev nD) : Fin 4096 → Fin 2048 → EReal := Cert.Args.mat (a := 4096) (b := 2048) (rarr1 V c)

abbrev gate1 (c : Dev nD) : Vec Ideal S8192x4096 .bf16 := fun i => Cert.Spec.silu (Cert.Spec.mmT (lmat1 V c) (rmat1 V c) (i 0) (i 1))

/-- One step's terms are block r of the contraction of row P of the left array against row Q of the right one. -/
theorem step1_terms (c : Dev nD) (n : ℕ) (hn : n < cfg1.N) (r : Fin 4) (hr : n % 4 = r.val) (p : Fin 1024) (q : Fin 512)
    (P : Fin 8192) (Q : Fin 4096) (hP : P.val = 1024 * (n / 32) + p.val) (hQ : Q.val = 512 * (n / 4 % 8) + q.val) :
    ∑ kk : Fin 512, lblk1 V c ⟨n, hn⟩ (ix2 p kk) * rblk1 V c ⟨n, hn⟩ (ix2 q kk)
      = ∑ kk : Fin 512, lmat1 V c P (Cert.Spec.blockTerm (nb := 4) (kb := 512) r kk) * rmat1 V c Q (Cert.Spec.blockTerm (nb := 4) (kb := 512) r kk) := by
  refine Finset.sum_congr rfl fun kk _ => ?_
  have hkk : (Cert.Spec.blockTerm (nb := 4) (kb := 512) r kk).val = kk.val + 512 * r.val := Cert.Spec.blockTerm_val r kk
  rw [lblk1_apply V c ⟨n, hn⟩ (ix2 p kk) (ix2 P (Cert.Spec.blockTerm (nb := 4) (kb := 512) r kk)) (by show P.val = 1024 * (n / 32) + p.val; exact hP)
      (by show (Cert.Spec.blockTerm (nb := 4) (kb := 512) r kk).val = 512 * (n % 4) + kk.val; rw [hkk, hr]; omega),
    rblk1_apply V c ⟨n, hn⟩ (ix2 q kk) (ix2 Q (Cert.Spec.blockTerm (nb := 4) (kb := 512) r kk)) (by show Q.val = 512 * (n / 4 % 8) + q.val; exact hQ)
      (by show (Cert.Spec.blockTerm (nb := 4) (kb := 512) r kk).val = 512 * (n % 4) + kk.val; rw [hkk, hr]; omega)]
  rfl

theorem acc1_tile (c : Dev nD) (b : ℕ) (hb : b + 3 < cfg1.N) (h4 : b % 4 = 0) (p : Fin 1024) (q : Fin 512)
    (P : Fin 8192) (Q : Fin 4096) (hP : P.val = 1024 * (b / 32) + p.val) (hQ : Q.val = 512 * (b / 4 % 8) + q.val) :
    acc1 V c (b + 3) hb (ix2 p q) = Cert.Spec.mmT (lmat1 V c) (rmat1 V c) P Q := by
  have hb0 : b < cfg1.N := by omega
  have hb1 : b + 1 < cfg1.N := by omega
  have hb2 : b + 2 < cfg1.N := by omega
  refine Cert.Spec.acc_blocks (kb := 512) (lmat1 V c) (rmat1 V c) P Q
    (acc1 V c b hb0 (ix2 p q)) (acc1 V c (b + 1) hb1 (ix2 p q)) (acc1 V c (b + 2) hb2 (ix2 p q)) (acc1 V c (b + 3) hb (ix2 p q)) ?_ ?_ ?_ ?_
  · rw [acc1_first V c b hb0 h4, pay1_2_apply, pay1_1_apply]
    exact congrArg (fun s : EReal => 0 + s) (step1_terms V c b hb0 0 (by show b % 4 = 0; exact h4) p q P Q hP hQ)
  · rw [acc1_step V c b hb1 (by omega), pay1_2_apply]
    exact congrArg (fun s : EReal => acc1 V c b hb0 (ix2 p q) + s) (step1_terms V c (b + 1) hb1 1 (by show (b + 1) % 4 = 1; omega) p q P Q (by rw [hP]; omega) (by rw [hQ]; omega))
  · rw [acc1_step V c (b + 1) hb2 (by omega), pay1_2_apply]
    exact congrArg (fun s : EReal => acc1 V c (b + 1) hb1 (ix2 p q) + s) (step1_terms V c (b + 2) hb2 2 (by show (b + 2) % 4 = 2; omega) p q P Q (by rw [hP]; omega) (by rw [hQ]; omega))
  · rw [acc1_step V c (b + 2) hb (by omega), pay1_2_apply]
    exact congrArg (fun s : EReal => acc1 V c (b + 2) hb2 (ix2 p q) + s) (step1_terms V c (b + 3) hb 3 (by show (b + 3) % 4 = 3; omega) p q P Q (by rw [hP]; omega) (by rw [hQ]; omega))

theorem obuf1_tile (c : Dev nD) (b : ℕ) (hb : b + 3 < cfg1.N) (h4 : b % 4 = 0) (p : Fin 1024) (q : Fin 512)
    (P : Fin 8192) (Q : Fin 4096) (hP : P.val = 1024 * (b / 32) + p.val) (hQ : Q.val = 512 * (b / 4 % 8) + q.val) :
    obuf1 V c (b + 3) hb (ix2 p q) = Cert.Spec.silu (Cert.Spec.mmT (lmat1 V c) (rmat1 V c) P Q) := by
  rw [obuf1_last V c (b + 3) hb (by omega), pay1_3_apply]
  exact congrArg Cert.Spec.silu (acc1_tile V c b hb h4 p q P Q hP hQ)

/-- What a last step writes back is its block of the array claimed below. -/
theorem flushed1 (c : Dev nD) (t : Fin cfg1.N) (hf : (cfg1.win 2).flush t = true) :
    (dat1 V c).flushed 2 t = ((cfg1.win 2).blk t).view.read (Elt Ideal) (gate1 V c) := by
  have h3 : t.val % 4 = 3 := (flush1_2 t).mp hf
  obtain ⟨-, -, -, -, e0, e1⟩ := idx1 t
  show (cfg1.win 2).cut (grid1.coords t) ((dat1 V c).after 2 t) = _
  rw [after1_2]
  funext y
  obtain ⟨p, q, rfl⟩ : ∃ (p : Fin 1024) (q : Fin 512), y = ix2 p q := ⟨y 0, y 1, eq_ix2 y⟩
  show obuf1 V c t.val t.isLt (ix2 p q) = gate1 V c (((cfg1.win 2).blk t).view.emb (ix2 p q))
  obtain ⟨n, hn⟩ := t
  obtain ⟨b, rfl⟩ : ∃ b, n = b + 3 := ⟨n - 3, by have : n % 4 = 3 := h3; omega⟩
  have h3' : (b + 3) % 4 = 3 := h3
  have e0' : win1_2.index ⟨b + 3, hn⟩ (0 : Fin 2) = (b + 3) / 32 := e0
  have e1' : win1_2.index ⟨b + 3, hn⟩ (1 : Fin 2) = (b + 3) / 4 % 8 := e1
  exact obuf1_tile V c b hn (by omega) p q _ _
    (by show win1_2.index ⟨b + 3, hn⟩ (0 : Fin 2) * 1024 + 1 * p.val = 1024 * (b / 32) + p.val; rw [e0']; omega)
    (by show win1_2.index ⟨b + 3, hn⟩ (1 : Fin 2) * 512 + 1 * q.val = 512 * (b / 4 % 8) + q.val; rw [e1']; omega)

theorem mem_blk1 (t : Fin cfg1.N) (i : S8192x4096.Idx) :
    i ∈ ((cfg1.win 2).blk t).view.set ↔ ∀ a : Fin 2, win1_2.index t a * S1024x512.size a ≤ (i a).val ∧ (i a).val < win1_2.index t a * S1024x512.size a + S1024x512.size a := by
  show i ∈ ((View.whole main_v10).slice (win1_2.rect t)).set ↔ _
  rw [View.set_slice_whole, Rect.mem_set_unit]
  exact Iff.rfl

/-- The array the region leaves: the written blocks cover it. -/
theorem final1 (c : Dev nD) : (dat1 V c).arrAt 2 cfg1.N = gate1 V c := by
  exact (dat1 V c).arrAt_eq_of_cover 2 (gate1 V c) (fun t hf => flushed1 V c t hf) fun i => by
    have hi0 : (i 0).val < 8192 := (i 0).isLt
    have hi1 : (i 1).val < 4096 := (i 1).isLt
    have hN : cfg1.N = 256 := N_1
    refine ⟨⟨32 * ((i 0).val / 1024) + 4 * ((i 1).val / 512) + 3, by omega⟩, (flush1_2 _).mpr (by show (32 * ((i 0).val / 1024) + 4 * ((i 1).val / 512) + 3) % 4 = 3; omega), ?_⟩
    rw [mem_blk1]
    obtain ⟨-, -, -, -, e0, e1⟩ := idx1 ⟨32 * ((i 0).val / 1024) + 4 * ((i 1).val / 512) + 3, by omega⟩
    intro a
    match a with
    | ⟨0, _⟩ => show win1_2.index _ (0 : Fin 2) * 1024 ≤ (i 0).val ∧ (i 0).val < win1_2.index _ (0 : Fin 2) * 1024 + 1024; rw [e0]; show (32 * ((i 0).val / 1024) + 4 * ((i 1).val / 512) + 3) / 32 * 1024 ≤ _ ∧ _ < (32 * ((i 0).val / 1024) + 4 * ((i 1).val / 512) + 3) / 32 * 1024 + 1024; omega
    | ⟨1, _⟩ => show win1_2.index _ (1 : Fin 2) * 512 ≤ (i 1).val ∧ (i 1).val < win1_2.index _ (1 : Fin 2) * 512 + 512; rw [e1]; show (32 * ((i 0).val / 1024) + 4 * ((i 1).val / 512) + 3) / 4 % 8 * 512 ≤ _ ∧ _ < (32 * ((i 0).val / 1024) + 4 * ((i 1).val / 512) + 3) / 4 % 8 * 512 + 512; omega

end

end Cert.KernelIdeal.Regs

end
-- ==== Proof.KI.R2Value.lean ====
import proofs.«146748_j31610959298744_1_alg».proof.Proof.KI.R2Data
import proofs.«146748_j31610959298744_1_alg».proof.Proof.LibRowLayers
import proofs.«146748_j31610959298744_1_alg».proof.Proof.Args
import Idealize.ShloMosaic.Lib.Pipeline.Value
import Idealize.ShloMosaic.Lib.ValueIdx
import Idealize.ShloMosaic.Lib.ValueLayout

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz2_2 : (![0, 0] : Fin 2 → Nat) = fun _ => 0 := funext fun a => by fin_cases a <;> rfl

section
variable (c : Dev nD) (i : grid2.Coords) (arg3 : Memref sig .tc .vmem S1024x1024 .bf16) (harg3 : arg3.IsWhole) (arg4 : Memref sig .tc .vmem S512x1024 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole)

/-- What a step's stores leave is the step's payload of the blocks it loaded. -/
theorem sout2_A_eq (hc0 : cond2_0 i) (hc1 : ¬cond2_1 i)
    (x0 : Vec F S1024x1024 .bf16) (x1 : Vec F S512x1024 .bf16) (x2 : Vec F S1x512 .f32) :
    sout2_A c i arg3 harg3 arg4 harg4 arg5 harg5 arg6 harg6 arg7 harg7 hc0 hc1 x0 x1 x2 = k2_pay2 (k2_pay1 (F := F)) x0 x1 := by
  unfold sout2_A
  rw [View.read_writes_eq_canon _ _ _ (scover2_A c i arg3 harg3 arg4 harg4 arg5 harg5 arg6 harg6 arg7 harg7 hc0 hc1 x0 x1 x2)]
  unfold kernelRun2_A
  dsimp only
  try sl_unfold_words
  rw [View.canon_cons_unit_zero (S := S1024x512) hz2_2, View.readCov_unit_zero (S := S1024x512) _ hz2_2]
  simp only [View.readAt_eq_ld, harg3.read_unread, harg4.read_unread, harg5.read_unread, harg7.read_unread, View.ld_unit_zero (S := S1024x512) hz2_2, View.ld_unit_zero (S := S1024x1024) hz2_2, View.ld_unit_zero (S := S512x1024) hz2_2, View.ld_unit_zero (S := S1x512) hz2_2]

theorem sout2_B_eq (hc0 : ¬cond2_0 i) (hc1 : ¬cond2_1 i)
    (x0 : Vec F S1024x1024 .bf16) (x1 : Vec F S512x1024 .bf16) (x2 : Vec F S1x512 .f32) (xs : Vec F S1024x512 .f32) :
    sout2_B c i arg3 harg3 arg4 harg4 arg5 harg5 arg6 harg6 arg7 harg7 hc0 hc1 x0 x1 x2 xs = k2_pay2 xs x0 x1 := by
  unfold sout2_B
  rw [View.read_writes_eq_canon _ _ _ (scover2_B c i arg3 harg3 arg4 harg4 arg5 harg5 arg6 harg6 arg7 harg7 hc0 hc1 x0 x1 x2 xs)]
  unfold kernelRun2_B
  dsimp only
  try sl_unfold_words
  rw [View.canon_unit_zero hz2_2]
  simp only [View.readAt_eq_ld, harg3.read_unread, harg4.read_unread, harg5.read_unread, harg7.read_unread, View.ld_unit_zero (S := S1024x512) hz2_2, View.ld_unit_zero (S := S1024x1024) hz2_2, View.ld_unit_zero (S := S512x1024) hz2_2, View.ld_unit_zero (S := S1x512) hz2_2]

theorem sout2_C_eq (hc0 : ¬cond2_0 i) (hc1 : cond2_1 i)
    (x0 : Vec F S1024x1024 .bf16) (x1 : Vec F S512x1024 .bf16) (x2 : Vec F S1x512 .f32) (xs : Vec F S1024x512 .f32) :
    sout2_C c i arg3 harg3 arg4 harg4 arg5 harg5 arg6 harg6 arg7 harg7 hc0 hc1 x0 x1 x2 xs = k2_pay2 xs x0 x1 := by
  unfold sout2_C
  rw [View.read_writes_eq_canon _ _ _ (scover2_C c i arg3 harg3 arg4 harg4 arg5 harg5 arg6 harg6 arg7 harg7 hc0 hc1 x0 x1 x2 xs)]
  unfold kernelRun2_C
  dsimp only
  try sl_unfold_words
  rw [View.canon_unit_zero hz2_2]
  simp only [View.readAt_eq_ld, harg3.read_unread, harg4.read_unread, harg5.read_unread, harg7.read_unread, View.ld_unit_zero (S := S1024x512) hz2_2, View.ld_unit_zero (S := S1024x1024) hz2_2, View.ld_unit_zero (S := S512x1024) hz2_2, View.ld_unit_zero (S := S1x512) hz2_2]

theorem out2_C_eq (hc0 : ¬cond2_0 i) (hc1 : cond2_1 i)
    (x0 : Vec F S1024x1024 .bf16) (x1 : Vec F S512x1024 .bf16) (x2 : Vec F S1x512 .f32) (xs : Vec F S1024x512 .f32) :
    out2_C c i arg3 harg3 arg4 harg4 arg5 harg5 arg6 harg6 arg7 harg7 hc0 hc1 x0 x1 x2 xs = k2_pay3 (k2_pay2 xs x0 x1) x2 := by
  unfold out2_C
  rw [View.read_writes_eq_canon _ _ _ (cover2_C c i arg3 harg3 arg4 harg4 arg5 harg5 arg6 harg6 arg7 harg7 hc0 hc1 x0 x1 x2 xs)]
  unfold kernelRun2_C
  dsimp only
  try sl_unfold_words
  rw [View.canon_unit_zero hz2_2, View.readCov_unit_zero (S := S1024x512) _ hz2_2]
  simp only [View.readAt_eq_ld, harg3.read_unread, harg4.read_unread, harg5.read_unread, harg7.read_unread, View.ld_unit_zero (S := S1024x512) hz2_2, View.ld_unit_zero (S := S1024x1024) hz2_2, View.ld_unit_zero (S := S512x1024) hz2_2, View.ld_unit_zero (S := S1x512) hz2_2]

end

section
variable (V : (c : Dev nD) → (b : Ref sig .tc) → Buf (Elt F) ((c : Thread nD τ).loc b))
abbrev larr2 (c : Dev nD) : Vec F S8192x4096 .bf16 := V c main_v9
abbrev rarr2 (c : Dev nD) : Vec F S4096x4096 .bf16 := V c main_v6
abbrev darr2 (c : Dev nD) : Vec F S1x4096 .f32 := V c main_v8

abbrev lblk2 (c : Dev nD) (t : Fin cfg2.N) : Vec F S1024x1024 .bf16 := iblk2 V c 0 t
abbrev rblk2 (c : Dev nD) (t : Fin cfg2.N) : Vec F S512x1024 .bf16 := iblk2 V c 1 t
abbrev dblk2 (c : Dev nD) (t : Fin cfg2.N) : Vec F S1x512 .f32 := iblk2 V c 2 t
abbrev acc2 (c : Dev nD) (n : ℕ) (hn : n < cfg2.N) : Vec F S1024x512 .f32 := (outsAt2 V c n hn).2
abbrev obuf2 (c : Dev nD) (n : ℕ) (hn : n < cfg2.N) : Vec F S1024x512 .bf16 := (outsAt2 V c n hn).1

/-- The running sum point by point: a first step adds its block product to zero, a later one to what the point before left. -/
theorem acc2_first (c : Dev nD) (n : ℕ) (hn : n < cfg2.N) (h0 : n % 4 = 0) :
    acc2 V c n hn = k2_pay2 (k2_pay1 (F := F)) (lblk2 V c ⟨n, hn⟩) (rblk2 V c ⟨n, hn⟩) := by
  have e := outsAt2_A V c ⟨n, hn⟩ h0 (by show ¬n % 4 = 3; omega)
  show (outsAt2 V c n hn).2 = _
  rw [e]
  dsimp only [ptA2]
  exact sout2_A_eq ..

theorem acc2_step (c : Dev nD) (n : ℕ) (hn : n + 1 < cfg2.N) (h0 : ¬(n + 1) % 4 = 0) :
    acc2 V c (n + 1) hn = k2_pay2 (acc2 V c n (Nat.lt_of_succ_lt hn)) (lblk2 V c ⟨n + 1, hn⟩) (rblk2 V c ⟨n + 1, hn⟩) := by
  show (outsAt2 V c (n + 1) hn).2 = _
  by_cases h1 : (n + 1) % 4 = 3
  · have e := outsAt2_C V c ⟨n + 1, hn⟩ h0 h1
    rw [e]
    dsimp only [ptC2]
    exact sout2_C_eq ..
  · have e := outsAt2_B V c ⟨n + 1, hn⟩ h0 h1
    rw [e]
    dsimp only [ptB2]
    exact sout2_B_eq ..

theorem obuf2_last (c : Dev nD) (n : ℕ) (hn : n < cfg2.N) (h1 : n % 4 = 3) :
    obuf2 V c n hn = k2_pay3 (acc2 V c n hn) (dblk2 V c ⟨n, hn⟩) := by
  have e := outsAt2_C V c ⟨n, hn⟩ (by show ¬n % 4 = 0; omega) h1
  show (outsAt2 V c n hn).1 = k2_pay3 (outsAt2 V c n hn).2 (iblk2 V c 2 ⟨n, hn⟩)
  rw [e]
  dsimp only [ptC2]
  rw [sout2_C_eq ..]
  exact out2_C_eq ..

/-- The windows' block indices at a point, decided over the whole grid. -/
theorem idx2 : ∀ t : Fin cfg2.N, win2_0.index t (0 : Fin 2) = t.val / 32 ∧ win2_0.index t (1 : Fin 2) = t.val % 4
    ∧ win2_1.index t (0 : Fin 2) = t.val / 4 % 8 ∧ win2_1.index t (1 : Fin 2) = t.val % 4
    ∧ win2_2.index t (0 : Fin 2) = 0 ∧ win2_2.index t (1 : Fin 2) = t.val / 4 % 8
    ∧ win2_3.index t (0 : Fin 2) = t.val / 32 ∧ win2_3.index t (1 : Fin 2) = t.val / 4 % 8 :=
  (by decide +kernel : ∀ t : Fin grid2.N, _)

theorem lblk2_apply (c : Dev nD) (t : Fin cfg2.N) (x : S1024x1024.Idx) (k : S8192x4096.Idx)
    (hk0 : (k 0).val = 1024 * (t.val / 32) + (x 0).val) (hk1 : (k 1).val = 1024 * (t.val % 4) + (x 1).val) :
    lblk2 V c t x = larr2 V c k := by
  obtain ⟨e0, e1, -, -, -, -, -, -⟩ := idx2 t
  show iblk2 V c 0 t x = V c main_v9 k
  unfold iblk2
  rw [View.read_apply]
  show V c main_v9 _ = V c main_v9 _
  congr 1
  funext a
  apply Fin.ext
  match a with
  | ⟨0, _⟩ => show win2_0.index t 0 * 1024 + 1 * (x 0).val = (k 0).val; rw [e0, hk0]; omega
  | ⟨1, _⟩ => show win2_0.index t 1 * 1024 + 1 * (x 1).val = (k 1).val; rw [e1, hk1]; omega

theorem rblk2_apply (c : Dev nD) (t : Fin cfg2.N) (x : S512x1024.Idx) (k : S4096x4096.Idx)
    (hk0 : (k 0).val = 512 * (t.val / 4 % 8) + (x 0).val) (hk1 : (k 1).val = 1024 * (t.val % 4) + (x 1).val) :
    rblk2 V c t x = rarr2 V c k := by
  obtain ⟨-, -, e0, e1, -, -, -, -⟩ := idx2 t
  show iblk2 V c 1 t x = V c main_v6 k
  unfold iblk2
  rw [View.read_apply]
  show V c main_v6 _ = V c main_v6 _
  congr 1
  funext a
  apply Fin.ext
  match a with
  | ⟨0, _⟩ => show win2_1.index t 0 * 512 + 1 * (x 0).val = (k 0).val; rw [e0, hk0]; omega
  | ⟨1, _⟩ => show win2_1.index t 1 * 1024 + 1 * (x 1).val = (k 1).val; rw [e1, hk1]; omega

theorem dblk2_apply (c : Dev nD) (t : Fin cfg2.N) (x : S1x512.Idx) (k : S1x4096.Idx)
    (hk0 : (k 0).val = (x 0).val) (hk1 : (k 1).val = 512 * (t.val / 4 % 8) + (x 1).val) :
    dblk2 V c t x = darr2 V c k := by
  obtain ⟨-, -, -, -, e0, e1, -, -⟩ := idx2 t
  show iblk2 V c 2 t x = V c main_v8 k
  unfold iblk2
  rw [View.read_apply]
  show V c main_v8 _ = V c main_v8 _
  congr 1
  funext a
  apply Fin.ext
  match a with
  | ⟨0, _⟩ => show win2_2.index t 0 * 1 + 1 * (x 0).val = (k 0).val; rw [e0, hk0]; omega
  | ⟨1, _⟩ => show win2_2.index t 1 * 512 + 1 * (x 1).val = (k 1).val; rw [e1, hk1]; omega

end

theorem pay2_1_apply (i : S1024x512.Idx) : (k2_pay1 (F := Ideal)) i = 0 := by
  unfold k2_pay1
  simp only [shapeCast_self]
  exact Ideal.ofBits_zero_f32

/-- The step's payload at (p, q): the running sum plus row p of the left block against row q of the right one. -/
theorem pay2_2_apply (v3 : Vec Ideal S1024x512 .f32) (v4 : Vec Ideal S1024x1024 .bf16) (v6 : Vec Ideal S512x1024 .bf16)
    (p : Fin 1024) (q : Fin 512) :
    k2_pay2 v3 v4 v6 (ix2 p q) = v3 (ix2 p q) + ∑ kk : Fin 1024, v4 (ix2 p kk) * v6 (ix2 q kk) := by
  unfold k2_pay2
  simp only [shapeCast_self]
  rw [addf_apply]
  exact congrArg (v3 (ix2 p q) + ·) (RowLayers.matmulT_apply (m := 1024) (k := 1024) (n := 512) none v4 v6 p q)

theorem pay2_3_apply (v16 : Vec Ideal S1024x512 .f32) (v17 : Vec Ideal S1x512 .f32) (p : Fin 1024) (q : Fin 512) :
    k2_pay3 v16 v17 (ix2 p q) = v16 (ix2 p q) * v17 (ix2 (0 : Fin 1) q) := by
  unfold k2_pay3
  rw [truncf_apply, mulf_apply, broadcastTo_1b_ab_apply, shapeCast_self]

section
variable (V : (c : Dev nD) → (b : Ref sig .tc) → Buf (Elt Ideal) ((c : Thread nD τ).loc b))
abbrev lmat2 (c : Dev nD) : Fin 8192 → Fin 4096 → EReal := Cert.Args.mat (a := 8192) (b := 4096) (larr2 V c)
abbrev rmat2 (c : Dev nD) : Fin 4096 → Fin 4096 → EReal := Cert.Args.mat (a := 4096) (b := 4096) (rarr2 V c)

abbrev dvec2 (c : Dev nD) : Fin 4096 → EReal := fun q => darr2 V c (ix2 (0 : Fin 1) q)

/-- One step's terms are block r of the contraction of row P of the left array against row Q of the right one. -/
theorem step2_terms (c : Dev nD) (n : ℕ) (hn : n < cfg2.N) (r : Fin 4) (hr : n % 4 = r.val) (p : Fin 1024) (q : Fin 512)
    (P : Fin 8192) (Q : Fin 4096) (hP : P.val = 1024 * (n / 32) + p.val) (hQ : Q.val = 512 * (n / 4 % 8) + q.val) :
    ∑ kk : Fin 1024, lblk2 V c ⟨n, hn⟩ (ix2 p kk) * rblk2 V c ⟨n, hn⟩ (ix2 q kk)
      = ∑ kk : Fin 1024, lmat2 V c P (Cert.Spec.blockTerm (nb := 4) (kb := 1024) r kk) * rmat2 V c Q (Cert.Spec.blockTerm (nb := 4) (kb := 1024) r kk) := by
  refine Finset.sum_congr rfl fun kk _ => ?_
  have hkk : (Cert.Spec.blockTerm (nb := 4) (kb := 1024) r kk).val = kk.val + 1024 * r.val := Cert.Spec.blockTerm_val r kk
  rw [lblk2_apply V c ⟨n, hn⟩ (ix2 p kk) (ix2 P (Cert.Spec.blockTerm (nb := 4) (kb := 1024) r kk)) (by show P.val = 1024 * (n / 32) + p.val; exact hP)
      (by show (Cert.Spec.blockTerm (nb := 4) (kb := 1024) r kk).val = 1024 * (n % 4) + kk.val; rw [hkk, hr]; omega),
    rblk2_apply V c ⟨n, hn⟩ (ix2 q kk) (ix2 Q (Cert.Spec.blockTerm (nb := 4) (kb := 1024) r kk)) (by show Q.val = 512 * (n / 4 % 8) + q.val; exact hQ)
      (by show (Cert.Spec.blockTerm (nb := 4) (kb := 1024) r kk).val = 1024 * (n % 4) + kk.val; rw [hkk, hr]; omega)]
  rfl

theorem acc2_tile (c : Dev nD) (b : ℕ) (hb : b + 3 < cfg2.N) (h4 : b % 4 = 0) (p : Fin 1024) (q : Fin 512)
    (P : Fin 8192) (Q : Fin 4096) (hP : P.val = 1024 * (b / 32) + p.val) (hQ : Q.val = 512 * (b / 4 % 8) + q.val) :
    acc2 V c (b + 3) hb (ix2 p q) = Cert.Spec.mmT (lmat2 V c) (rmat2 V c) P Q := by
  have hb0 : b < cfg2.N := by omega
  have hb1 : b + 1 < cfg2.N := by omega
  have hb2 : b + 2 < cfg2.N := by omega
  refine Cert.Spec.acc_blocks (kb := 1024) (lmat2 V c) (rmat2 V c) P Q
    (acc2 V c b hb0 (ix2 p q)) (acc2 V c (b + 1) hb1 (ix2 p q)) (acc2 V c (b + 2) hb2 (ix2 p q)) (acc2 V c (b + 3) hb (ix2 p q)) ?_ ?_ ?_ ?_
  · rw [acc2_first V c b hb0 h4, pay2_2_apply, pay2_1_apply]
    exact congrArg (fun s : EReal => 0 + s) (step2_terms V c b hb0 0 (by show b % 4 = 0; exact h4) p q P Q hP hQ)
  · rw [acc2_step V c b hb1 (by omega), pay2_2_apply]
    exact congrArg (fun s : EReal => acc2 V c b hb0 (ix2 p q) + s) (step2_terms V c (b + 1) hb1 1 (by show (b + 1) % 4 = 1; omega) p q P Q (by rw [hP]; omega) (by rw [hQ]; omega))
  · rw [acc2_step V c (b + 1) hb2 (by omega), pay2_2_apply]
    exact congrArg (fun s : EReal => acc2 V c (b + 1) hb1 (ix2 p q) + s) (step2_terms V c (b + 2) hb2 2 (by show (b + 2) % 4 = 2; omega) p q P Q (by rw [hP]; omega) (by rw [hQ]; omega))
  · rw [acc2_step V c (b + 2) hb (by omega), pay2_2_apply]
    exact congrArg (fun s : EReal => acc2 V c (b + 2) hb2 (ix2 p q) + s) (step2_terms V c (b + 3) hb 3 (by show (b + 3) % 4 = 3; omega) p q P Q (by rw [hP]; omega) (by rw [hQ]; omega))

theorem obuf2_tile (c : Dev nD) (b : ℕ) (hb : b + 3 < cfg2.N) (h4 : b % 4 = 0) (p : Fin 1024) (q : Fin 512)
    (P : Fin 8192) (Q : Fin 4096) (hP : P.val = 1024 * (b / 32) + p.val) (hQ : Q.val = 512 * (b / 4 % 8) + q.val) :
    obuf2 V c (b + 3) hb (ix2 p q) = Cert.Spec.mmT (lmat2 V c) (rmat2 V c) P Q * dvec2 V c Q := by
  rw [obuf2_last V c (b + 3) hb (by omega), pay2_3_apply, acc2_tile V c b hb h4 p q P Q hP hQ,
    dblk2_apply V c ⟨b + 3, hb⟩ (ix2 (0 : Fin 1) q) (ix2 (0 : Fin 1) Q) rfl (by show Q.val = 512 * ((b + 3) / 4 % 8) + q.val; rw [hQ]; omega)]

end

section
variable (V : (c : Dev nD) → (b : Ref sig .tc) → Buf (Elt Ideal) ((c : Thread nD τ).loc b))

abbrev scaled2 (c : Dev nD) : Vec Ideal S8192x4096 .bf16 := fun i => Cert.Spec.mmT (lmat2 V c) (rmat2 V c) (i 0) (i 1) * dvec2 V c (i 1)

/-- What a last step writes back is its block of the array claimed below. -/
theorem flushed2 (c : Dev nD) (t : Fin cfg2.N) (hf : (cfg2.win 3).flush t = true) :
    (dat2 V c).flushed 3 t = ((cfg2.win 3).blk t).view.read (Elt Ideal) (scaled2 V c) := by
  have h3 : t.val % 4 = 3 := (flush2_3 t).mp hf
  obtain ⟨-, -, -, -, -, -, e0, e1⟩ := idx2 t
  show (cfg2.win 3).cut (grid2.coords t) ((dat2 V c).after 3 t) = _
  rw [after2_3]
  funext y
  obtain ⟨p, q, rfl⟩ : ∃ (p : Fin 1024) (q : Fin 512), y = ix2 p q := ⟨y 0, y 1, eq_ix2 y⟩
  show obuf2 V c t.val t.isLt (ix2 p q) = scaled2 V c (((cfg2.win 3).blk t).view.emb (ix2 p q))
  obtain ⟨n, hn⟩ := t
  obtain ⟨b, rfl⟩ : ∃ b, n = b + 3 := ⟨n - 3, by have : n % 4 = 3 := h3; omega⟩
  have h3' : (b + 3) % 4 = 3 := h3
  have e0' : win2_3.index ⟨b + 3, hn⟩ (0 : Fin 2) = (b + 3) / 32 := e0
  have e1' : win2_3.index ⟨b + 3, hn⟩ (1 : Fin 2) = (b + 3) / 4 % 8 := e1
  exact obuf2_tile V c b hn (by omega) p q _ _
    (by show win2_3.index ⟨b + 3, hn⟩ (0 : Fin 2) * 1024 + 1 * p.val = 1024 * (b / 32) + p.val; rw [e0']; omega)
    (by show win2_3.index ⟨b + 3, hn⟩ (1 : Fin 2) * 512 + 1 * q.val = 512 * (b / 4 % 8) + q.val; rw [e1']; omega)

theorem mem_blk2 (t : Fin cfg2.N) (i : S8192x4096.Idx) :
    i ∈ ((cfg2.win 3).blk t).view.set ↔ ∀ a : Fin 2, win2_3.index t a * S1024x512.size a ≤ (i a).val ∧ (i a).val < win2_3.index t a * S1024x512.size a + S1024x512.size a := by
  show i ∈ ((View.whole main_v11).slice (win2_3.rect t)).set ↔ _
  rw [View.set_slice_whole, Rect.mem_set_unit]
  exact Iff.rfl

/-- The array the region leaves: the written blocks cover it. -/
theorem final2 (c : Dev nD) : (dat2 V c).arrAt 3 cfg2.N = scaled2 V c :=
  (dat2 V c).arrAt_eq_of_cover 3 (scaled2 V c) (fun t hf => flushed2 V c t hf) fun i => by
    have hi0 : (i 0).val < 8192 := (i 0).isLt
    have hi1 : (i 1).val < 4096 := (i 1).isLt
    have hN : cfg2.N = 256 := N_2
    refine ⟨⟨32 * ((i 0).val / 1024) + 4 * ((i 1).val / 512) + 3, by omega⟩, (flush2_3 _).mpr (by show (32 * ((i 0).val / 1024) + 4 * ((i 1).val / 512) + 3) % 4 = 3; omega), ?_⟩
    rw [mem_blk2]
    obtain ⟨-, -, -, -, -, -, e0, e1⟩ := idx2 ⟨32 * ((i 0).val / 1024) + 4 * ((i 1).val / 512) + 3, by omega⟩
    intro a
    match a with
    | ⟨0, _⟩ => show win2_3.index _ (0 : Fin 2) * 1024 ≤ (i 0).val ∧ (i 0).val < win2_3.index _ (0 : Fin 2) * 1024 + 1024; rw [e0]; show (32 * ((i 0).val / 1024) + 4 * ((i 1).val / 512) + 3) / 32 * 1024 ≤ _ ∧ _ < (32 * ((i 0).val / 1024) + 4 * ((i 1).val / 512) + 3) / 32 * 1024 + 1024; omega
    | ⟨1, _⟩ => show win2_3.index _ (1 : Fin 2) * 512 ≤ (i 1).val ∧ (i 1).val < win2_3.index _ (1 : Fin 2) * 512 + 512; rw [e1]; show (32 * ((i 0).val / 1024) + 4 * ((i 1).val / 512) + 3) / 4 % 8 * 512 ≤ _ ∧ _ < (32 * ((i 0).val / 1024) + 4 * ((i 1).val / 512) + 3) / 4 % 8 * 512 + 512; omega

end

end Cert.KernelIdeal.Regs

end
-- ==== Proof.KI.R3Value.lean ====
import proofs.«146748_j31610959298744_1_alg».proof.Proof.KI.R3Data
import proofs.«146748_j31610959298744_1_alg».proof.Proof.LibRowLayers
import proofs.«146748_j31610959298744_1_alg».proof.Proof.Args
import Idealize.ShloMosaic.Lib.Pipeline.Value
import Idealize.ShloMosaic.Lib.ValueIdx
import Idealize.ShloMosaic.Lib.ValueLayout

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz2_3 : (![0, 0] : Fin 2 → Nat) = fun _ => 0 := funext fun a => by fin_cases a <;> rfl

section
variable (c : Dev nD) (i : grid3.Coords) (arg3 : Memref sig .tc .vmem S1024x1024 .bf16) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S1024x512 .f32) (harg6 : arg6.IsWhole) (arg7 : Memref sig .tc .vmem S1024x512 .f32) (harg7 : arg7.IsWhole)

/-- What a step's stores leave is the step's payload of the blocks it loaded. -/
theorem sout3_A_eq (hc0 : cond3_0 i) (hc1 : ¬cond3_1 i)
    (x0 : Vec F S1024x1024 .bf16) (x1 : Vec F S1024x1024 .bf16) (x2 : Vec F S512x1024 .bf16) :
    sout3_A c i arg3 harg3 arg4 harg4 arg5 harg5 arg6 harg6 arg7 harg7 hc0 hc1 x0 x1 x2 = k3_pay2 x0 x1 (k3_pay1 (F := F)) x2 := by
  unfold sout3_A
  rw [View.read_writes_eq_canon _ _ _ (scover3_A c i arg3 harg3 arg4 harg4 arg5 harg5 arg6 harg6 arg7 harg7 hc0 hc1 x0 x1 x2)]
  unfold kernelRun3_A
  dsimp only
  try sl_unfold_words
  rw [View.canon_cons_unit_zero (S := S1024x512) hz2_3, View.readCov_unit_zero (S := S1024x512) _ hz2_3]
  simp only [View.readAt_eq_ld, harg3.read_unread, harg4.read_unread, harg5.read_unread, harg7.read_unread, View.ld_unit_zero (S := S1024x1024) hz2_3, View.ld_unit_zero (S := S512x1024) hz2_3, View.ld_unit_zero (S := S1024x512) hz2_3]

theorem sout3_B_eq (hc0 : ¬cond3_0 i) (hc1 : ¬cond3_1 i)
    (x0 : Vec F S1024x1024 .bf16) (x1 : Vec F S1024x1024 .bf16) (x2 : Vec F S512x1024 .bf16) (xs : Vec F S1024x512 .f32) :
    sout3_B c i arg3 harg3 arg4 harg4 arg5 harg5 arg6 harg6 arg7 harg7 hc0 hc1 x0 x1 x2 xs = k3_pay2 x0 x1 xs x2 := by
  unfold sout3_B
  rw [View.read_writes_eq_canon _ _ _ (scover3_B c i arg3 harg3 arg4 harg4 arg5 harg5 arg6 harg6 arg7 harg7 hc0 hc1 x0 x1 x2 xs)]
  unfold kernelRun3_B
  dsimp only
  try sl_unfold_words
  rw [View.canon_unit_zero hz2_3]
  simp only [View.readAt_eq_ld, harg3.read_unread, harg4.read_unread, harg5.read_unread, harg7.read_unread, View.ld_unit_zero (S := S1024x1024) hz2_3, View.ld_unit_zero (S := S512x1024) hz2_3, View.ld_unit_zero (S := S1024x512) hz2_3]

theorem sout3_C_eq (hc0 : ¬cond3_0 i) (hc1 : cond3_1 i)
    (x0 : Vec F S1024x1024 .bf16) (x1 : Vec F S1024x1024 .bf16) (x2 : Vec F S512x1024 .bf16) (xs : Vec F S1024x512 .f32) :
    sout3_C c i arg3 harg3 arg4 harg4 arg5 harg5 arg6 harg6 arg7 harg7 hc0 hc1 x0 x1 x2 xs = k3_pay2 x0 x1 xs x2 := by
  unfold sout3_C
  rw [View.read_writes_eq_canon _ _ _ (scover3_C c i arg3 harg3 arg4 harg4 arg5 harg5 arg6 harg6 arg7 harg7 hc0 hc1 x0 x1 x2 xs)]
  unfold kernelRun3_C
  dsimp only
  try sl_unfold_words
  rw [View.canon_unit_zero hz2_3]
  simp only [View.readAt_eq_ld, harg3.read_unread, harg4.read_unread, harg5.read_unread, harg7.read_unread, View.ld_unit_zero (S := S1024x1024) hz2_3, View.ld_unit_zero (S := S512x1024) hz2_3, View.ld_unit_zero (S := S1024x512) hz2_3]

theorem out3_C_eq (hc0 : ¬cond3_0 i) (hc1 : cond3_1 i)
    (x0 : Vec F S1024x1024 .bf16) (x1 : Vec F S1024x1024 .bf16) (x2 : Vec F S512x1024 .bf16) (xs : Vec F S1024x512 .f32) :
    out3_C c i arg3 harg3 arg4 harg4 arg5 harg5 arg6 harg6 arg7 harg7 hc0 hc1 x0 x1 x2 xs = k3_pay2 x0 x1 xs x2 := by
  unfold out3_C
  rw [View.read_writes_eq_canon _ _ _ (cover3_C c i arg3 harg3 arg4 harg4 arg5 harg5 arg6 harg6 arg7 harg7 hc0 hc1 x0 x1 x2 xs)]
  unfold kernelRun3_C
  dsimp only
  try sl_unfold_words
  rw [View.canon_unit_zero hz2_3, View.readCov_unit_zero (S := S1024x512) _ hz2_3]
  simp only [View.readAt_eq_ld, harg3.read_unread, harg4.read_unread, harg5.read_unread, harg7.read_unread, View.ld_unit_zero (S := S1024x1024) hz2_3, View.ld_unit_zero (S := S512x1024) hz2_3, View.ld_unit_zero (S := S1024x512) hz2_3]

end

section
variable (V : (c : Dev nD) → (b : Ref sig .tc) → Buf (Elt F) ((c : Thread nD τ).loc b))
abbrev yarr3 (c : Dev nD) : Vec F S8192x4096 .bf16 := V c main_v11
abbrev zarr3 (c : Dev nD) : Vec F S8192x4096 .bf16 := V c main_v10
abbrev warr3 (c : Dev nD) : Vec F S2048x4096 .bf16 := V c main_v7

abbrev yblk3 (c : Dev nD) (t : Fin cfg3.N) : Vec F S1024x1024 .bf16 := iblk3 V c 0 t
abbrev zblk3 (c : Dev nD) (t : Fin cfg3.N) : Vec F S1024x1024 .bf16 := iblk3 V c 1 t
abbrev wblk3 (c : Dev nD) (t : Fin cfg3.N) : Vec F S512x1024 .bf16 := iblk3 V c 2 t
abbrev acc3 (c : Dev nD) (n : ℕ) (hn : n < cfg3.N) : Vec F S1024x512 .f32 := (outsAt3 V c n hn).2
abbrev obuf3 (c : Dev nD) (n : ℕ) (hn : n < cfg3.N) : Vec F S1024x512 .f32 := (outsAt3 V c n hn).1

/-- The running sum point by point: a first step adds its block product to zero, a later one to what the point before left. -/
theorem acc3_first (c : Dev nD) (n : ℕ) (hn : n < cfg3.N) (h0 : n % 4 = 0) :
    acc3 V c n hn = k3_pay2 (yblk3 V c ⟨n, hn⟩) (zblk3 V c ⟨n, hn⟩) (k3_pay1 (F := F)) (wblk3 V c ⟨n, hn⟩) := by
  have e := outsAt3_A V c ⟨n, hn⟩ h0 (by show ¬n % 4 = 3; omega)
  show (outsAt3 V c n hn).2 = _
  rw [e]
  dsimp only [ptA3]
  exact sout3_A_eq ..

theorem acc3_step (c : Dev nD) (n : ℕ) (hn : n + 1 < cfg3.N) (h0 : ¬(n + 1) % 4 = 0) :
    acc3 V c (n + 1) hn = k3_pay2 (yblk3 V c ⟨n + 1, hn⟩) (zblk3 V c ⟨n + 1, hn⟩) (acc3 V c n (Nat.lt_of_succ_lt hn)) (wblk3 V c ⟨n + 1, hn⟩) := by
  show (outsAt3 V c (n + 1) hn).2 = _
  by_cases h1 : (n + 1) % 4 = 3
  · have e := outsAt3_C V c ⟨n + 1, hn⟩ h0 h1
    rw [e]
    dsimp only [ptC3]
    exact sout3_C_eq ..
  · have e := outsAt3_B V c ⟨n + 1, hn⟩ h0 h1
    rw [e]
    dsimp only [ptB3]
    exact sout3_B_eq ..

theorem obuf3_last (c : Dev nD) (n : ℕ) (hn : n < cfg3.N) (h1 : n % 4 = 3) :
    obuf3 V c n hn = acc3 V c n hn := by
  have e := outsAt3_C V c ⟨n, hn⟩ (by show ¬n % 4 = 0; omega) h1
  show (outsAt3 V c n hn).1 = (outsAt3 V c n hn).2
  rw [e]
  dsimp only [ptC3]
  rw [sout3_C_eq ..]
  exact out3_C_eq ..

/-- The windows' block indices at a point, decided over the whole grid. -/
theorem idx3 : ∀ t : Fin cfg3.N, win3_0.index t (0 : Fin 2) = t.val / 16 ∧ win3_0.index t (1 : Fin 2) = t.val % 4
    ∧ win3_1.index t (0 : Fin 2) = t.val / 16 ∧ win3_1.index t (1 : Fin 2) = t.val % 4
    ∧ win3_2.index t (0 : Fin 2) = t.val / 4 % 4 ∧ win3_2.index t (1 : Fin 2) = t.val % 4
    ∧ win3_3.index t (0 : Fin 2) = t.val / 16 ∧ win3_3.index t (1 : Fin 2) = t.val / 4 % 4 :=
  (by decide +kernel : ∀ t : Fin grid3.N, _)

theorem yblk3_apply (c : Dev nD) (t : Fin cfg3.N) (x : S1024x1024.Idx) (k : S8192x4096.Idx)
    (hk0 : (k 0).val = 1024 * (t.val / 16) + (x 0).val) (hk1 : (k 1).val = 1024 * (t.val % 4) + (x 1).val) :
    yblk3 V c t x = yarr3 V c k := by
  obtain ⟨e0, e1, -, -, -, -, -, -⟩ := idx3 t
  show iblk3 V c 0 t x = V c main_v11 k
  unfold iblk3
  rw [View.read_apply]
  show V c main_v11 _ = V c main_v11 _
  congr 1
  funext a
  apply Fin.ext
  match a with
  | ⟨0, _⟩ => show win3_0.index t 0 * 1024 + 1 * (x 0).val = (k 0).val; rw [e0, hk0]; omega
  | ⟨1, _⟩ => show win3_0.index t 1 * 1024 + 1 * (x 1).val = (k 1).val; rw [e1, hk1]; omega

theorem zblk3_apply (c : Dev nD) (t : Fin cfg3.N) (x : S1024x1024.Idx) (k : S8192x4096.Idx)
    (hk0 : (k 0).val = 1024 * (t.val / 16) + (x 0).val) (hk1 : (k 1).val = 1024 * (t.val % 4) + (x 1).val) :
    zblk3 V c t x = zarr3 V c k := by
  obtain ⟨-, -, e0, e1, -, -, -, -⟩ := idx3 t
  show iblk3 V c 1 t x = V c main_v10 k
  unfold iblk3
  rw [View.read_apply]
  show V c main_v10 _ = V c main_v10 _
  congr 1
  funext a
  apply Fin.ext
  match a with
  | ⟨0, _⟩ => show win3_1.index t 0 * 1024 + 1 * (x 0).val = (k 0).val; rw [e0, hk0]; omega
  | ⟨1, _⟩ => show win3_1.index t 1 * 1024 + 1 * (x 1).val = (k 1).val; rw [e1, hk1]; omega

theorem wblk3_apply (c : Dev nD) (t : Fin cfg3.N) (x : S512x1024.Idx) (k : S2048x4096.Idx)
    (hk0 : (k 0).val = 512 * (t.val / 4 % 4) + (x 0).val) (hk1 : (k 1).val = 1024 * (t.val % 4) + (x 1).val) :
    wblk3 V c t x = warr3 V c k := by
  obtain ⟨-, -, -, -, e0, e1, -, -⟩ := idx3 t
  show iblk3 V c 2 t x = V c main_v7 k
  unfold iblk3
  rw [View.read_apply]
  show V c main_v7 _ = V c main_v7 _
  congr 1
  funext a
  apply Fin.ext
  match a with
  | ⟨0, _⟩ => show win3_2.index t 0 * 512 + 1 * (x 0).val = (k 0).val; rw [e0, hk0]; omega
  | ⟨1, _⟩ => show win3_2.index t 1 * 1024 + 1 * (x 1).val = (k 1).val; rw [e1, hk1]; omega

end

theorem pay3_1_apply (i : S1024x512.Idx) : (k3_pay1 (F := Ideal)) i = 0 := by
  unfold k3_pay1
  simp only [shapeCast_self]
  exact Ideal.ofBits_zero_f32

/-- The step's payload at (p, q): the running sum plus row p of the left block against row q of the right one. -/
theorem pay3_2_apply (v3 : Vec Ideal S1024x1024 .bf16) (v6 : Vec Ideal S1024x1024 .bf16) (v11 : Vec Ideal S1024x512 .f32)
    (v12 : Vec Ideal S512x1024 .bf16) (p : Fin 1024) (q : Fin 512) :
    k3_pay2 v3 v6 v11 v12 (ix2 p q) = v11 (ix2 p q) + ∑ kk : Fin 1024, (v3 (ix2 p kk) * v6 (ix2 p kk)) * v12 (ix2 q kk) := by
  unfold k3_pay2
  simp only [shapeCast_self]
  rw [addf_apply]
  refine congrArg (fun s : EReal => v11 (ix2 p q) + s) ?_
  refine (RowLayers.matmulT_apply (m := 1024) (k := 1024) (n := 512) none
    (truncf .bf16 (mulf (extf .f32 v3 bitsLt_bf16_f32) (extf .f32 v6 bitsLt_bf16_f32)) bitsLt_bf16_f32) v12 p q).trans ?_
  exact Finset.sum_congr rfl fun kk _ => rfl

section
variable (V : (c : Dev nD) → (b : Ref sig .tc) → Buf (Elt Ideal) ((c : Thread nD τ).loc b))
abbrev ymat3 (c : Dev nD) : Fin 8192 → Fin 4096 → EReal := Cert.Args.mat (a := 8192) (b := 4096) (yarr3 V c)
abbrev zmat3 (c : Dev nD) : Fin 8192 → Fin 4096 → EReal := Cert.Args.mat (a := 8192) (b := 4096) (zarr3 V c)
abbrev wmat3 (c : Dev nD) : Fin 2048 → Fin 4096 → EReal := Cert.Args.mat (a := 2048) (b := 4096) (warr3 V c)

abbrev gmat3 (c : Dev nD) : Fin 8192 → Fin 4096 → EReal := fun p k => ymat3 V c p k * zmat3 V c p k

/-- One step's terms are block r of the contraction of row P of the left array against row Q of the right one. -/
theorem step3_terms (c : Dev nD) (n : ℕ) (hn : n < cfg3.N) (r : Fin 4) (hr : n % 4 = r.val) (p : Fin 1024) (q : Fin 512)
    (P : Fin 8192) (Q : Fin 2048) (hP : P.val = 1024 * (n / 16) + p.val) (hQ : Q.val = 512 * (n / 4 % 4) + q.val) :
    ∑ kk : Fin 1024, (yblk3 V c ⟨n, hn⟩ (ix2 p kk) * zblk3 V c ⟨n, hn⟩ (ix2 p kk)) * wblk3 V c ⟨n, hn⟩ (ix2 q kk)
      = ∑ kk : Fin 1024, gmat3 V c P (Cert.Spec.blockTerm (nb := 4) (kb := 1024) r kk) * wmat3 V c Q (Cert.Spec.blockTerm (nb := 4) (kb := 1024) r kk) := by
  refine Finset.sum_congr rfl fun kk _ => ?_
  have hkk : (Cert.Spec.blockTerm (nb := 4) (kb := 1024) r kk).val = kk.val + 1024 * r.val := Cert.Spec.blockTerm_val r kk
  rw [yblk3_apply V c ⟨n, hn⟩ (ix2 p kk) (ix2 P (Cert.Spec.blockTerm (nb := 4) (kb := 1024) r kk)) (by show P.val = 1024 * (n / 16) + p.val; exact hP)
      (by show (Cert.Spec.blockTerm (nb := 4) (kb := 1024) r kk).val = 1024 * (n % 4) + kk.val; rw [hkk, hr]; omega),
    zblk3_apply V c ⟨n, hn⟩ (ix2 p kk) (ix2 P (Cert.Spec.blockTerm (nb := 4) (kb := 1024) r kk)) (by show P.val = 1024 * (n / 16) + p.val; exact hP)
      (by show (Cert.Spec.blockTerm (nb := 4) (kb := 1024) r kk).val = 1024 * (n % 4) + kk.val; rw [hkk, hr]; omega),
    wblk3_apply V c ⟨n, hn⟩ (ix2 q kk) (ix2 Q (Cert.Spec.blockTerm (nb := 4) (kb := 1024) r kk)) (by show Q.val = 512 * (n / 4 % 4) + q.val; exact hQ)
      (by show (Cert.Spec.blockTerm (nb := 4) (kb := 1024) r kk).val = 1024 * (n % 4) + kk.val; rw [hkk, hr]; omega)]
  rfl

theorem obuf3_tile (c : Dev nD) (b : ℕ) (hb : b + 3 < cfg3.N) (h4 : b % 4 = 0) (p : Fin 1024) (q : Fin 512)
    (P : Fin 8192) (Q : Fin 2048) (hP : P.val = 1024 * (b / 16) + p.val) (hQ : Q.val = 512 * (b / 4 % 4) + q.val) :
    obuf3 V c (b + 3) hb (ix2 p q) = Cert.Spec.mmT (gmat3 V c) (wmat3 V c) P Q := by
  have hb0 : b < cfg3.N := by omega
  have hb1 : b + 1 < cfg3.N := by omega
  have hb2 : b + 2 < cfg3.N := by omega
  rw [obuf3_last V c (b + 3) hb (by omega)]
  refine Cert.Spec.acc_blocks (kb := 1024) (gmat3 V c) (wmat3 V c) P Q
    (acc3 V c b hb0 (ix2 p q)) (acc3 V c (b + 1) hb1 (ix2 p q)) (acc3 V c (b + 2) hb2 (ix2 p q)) (acc3 V c (b + 3) hb (ix2 p q)) ?_ ?_ ?_ ?_
  · rw [acc3_first V c b hb0 h4, pay3_2_apply, pay3_1_apply]
    exact congrArg (fun s : EReal => 0 + s) (step3_terms V c b hb0 0 (by show b % 4 = 0; exact h4) p q P Q hP hQ)
  · rw [acc3_step V c b hb1 (by omega), pay3_2_apply]
    exact congrArg (fun s : EReal => acc3 V c b hb0 (ix2 p q) + s) (step3_terms V c (b + 1) hb1 1 (by show (b + 1) % 4 = 1; omega) p q P Q (by rw [hP]; omega) (by rw [hQ]; omega))
  · rw [acc3_step V c (b + 1) hb2 (by omega), pay3_2_apply]
    exact congrArg (fun s : EReal => acc3 V c (b + 1) hb1 (ix2 p q) + s) (step3_terms V c (b + 2) hb2 2 (by show (b + 2) % 4 = 2; omega) p q P Q (by rw [hP]; omega) (by rw [hQ]; omega))
  · rw [acc3_step V c (b + 2) hb (by omega), pay3_2_apply]
    exact congrArg (fun s : EReal => acc3 V c (b + 2) hb2 (ix2 p q) + s) (step3_terms V c (b + 3) hb 3 (by show (b + 3) % 4 = 3; omega) p q P Q (by rw [hP]; omega) (by rw [hQ]; omega))

abbrev out3 (c : Dev nD) : Vec Ideal S8192x2048 .f32 := fun i => Cert.Spec.mmT (fun p k => ymat3 V c p k * zmat3 V c p k) (wmat3 V c) (i 0) (i 1)

/-- What a last step writes back is its block of the array claimed below. -/
theorem flushed3 (c : Dev nD) (t : Fin cfg3.N) (hf : (cfg3.win 3).flush t = true) :
    (dat3 V c).flushed 3 t = ((cfg3.win 3).blk t).view.read (Elt Ideal) (out3 V c) := by
  have h3 : t.val % 4 = 3 := (flush3_3 t).mp hf
  obtain ⟨-, -, -, -, -, -, e0, e1⟩ := idx3 t
  show (cfg3.win 3).cut (grid3.coords t) ((dat3 V c).after 3 t) = _
  rw [after3_3]
  funext y
  obtain ⟨p, q, rfl⟩ : ∃ (p : Fin 1024) (q : Fin 512), y = ix2 p q := ⟨y 0, y 1, eq_ix2 y⟩
  show obuf3 V c t.val t.isLt (ix2 p q) = out3 V c (((cfg3.win 3).blk t).view.emb (ix2 p q))
  obtain ⟨n, hn⟩ := t
  obtain ⟨b, rfl⟩ : ∃ b, n = b + 3 := ⟨n - 3, by have : n % 4 = 3 := h3; omega⟩
  have h3' : (b + 3) % 4 = 3 := h3
  have e0' : win3_3.index ⟨b + 3, hn⟩ (0 : Fin 2) = (b + 3) / 16 := e0
  have e1' : win3_3.index ⟨b + 3, hn⟩ (1 : Fin 2) = (b + 3) / 4 % 4 := e1
  exact obuf3_tile V c b hn (by omega) p q _ _
    (by show win3_3.index ⟨b + 3, hn⟩ (0 : Fin 2) * 1024 + 1 * p.val = 1024 * (b / 16) + p.val; rw [e0']; omega)
    (by show win3_3.index ⟨b + 3, hn⟩ (1 : Fin 2) * 512 + 1 * q.val = 512 * (b / 4 % 4) + q.val; rw [e1']; omega)

theorem mem_blk3 (t : Fin cfg3.N) (i : S8192x2048.Idx) :
    i ∈ ((cfg3.win 3).blk t).view.set ↔ ∀ a : Fin 2, win3_3.index t a * S1024x512.size a ≤ (i a).val ∧ (i a).val < win3_3.index t a * S1024x512.size a + S1024x512.size a := by
  show i ∈ ((View.whole main_v12).slice (win3_3.rect t)).set ↔ _
  rw [View.set_slice_whole, Rect.mem_set_unit]
  exact Iff.rfl

/-- The array the region leaves: the written blocks cover it. -/
theorem final3 (c : Dev nD) : (dat3 V c).arrAt 3 cfg3.N = out3 V c :=
  (dat3 V c).arrAt_eq_of_cover 3 (out3 V c) (fun t hf => flushed3 V c t hf) fun i => by
    have hi0 : (i 0).val < 8192 := (i 0).isLt
    have hi1 : (i 1).val < 2048 := (i 1).isLt
    have hN : cfg3.N = 128 := N_3
    refine ⟨⟨16 * ((i 0).val / 1024) + 4 * ((i 1).val / 512) + 3, by omega⟩, (flush3_3 _).mpr (by show (16 * ((i 0).val / 1024) + 4 * ((i 1).val / 512) + 3) % 4 = 3; omega), ?_⟩
    rw [mem_blk3]
    obtain ⟨-, -, -, -, -, -, e0, e1⟩ := idx3 ⟨16 * ((i 0).val / 1024) + 4 * ((i 1).val / 512) + 3, by omega⟩
    intro a
    match a with
    | ⟨0, _⟩ => show win3_3.index _ (0 : Fin 2) * 1024 ≤ (i 0).val ∧ (i 0).val < win3_3.index _ (0 : Fin 2) * 1024 + 1024; rw [e0]; show (16 * ((i 0).val / 1024) + 4 * ((i 1).val / 512) + 3) / 16 * 1024 ≤ _ ∧ _ < (16 * ((i 0).val / 1024) + 4 * ((i 1).val / 512) + 3) / 16 * 1024 + 1024; omega
    | ⟨1, _⟩ => show win3_3.index _ (1 : Fin 2) * 512 ≤ (i 1).val ∧ (i 1).val < win3_3.index _ (1 : Fin 2) * 512 + 512; rw [e1]; show (16 * ((i 0).val / 1024) + 4 * ((i 1).val / 512) + 3) / 4 % 4 * 512 ≤ _ ∧ _ < (16 * ((i 0).val / 1024) + 4 * ((i 1).val / 512) + 3) / 4 % 4 * 512 + 512; omega
end

end Cert.KernelIdeal.Regs

end
-- ==== Proof.KI.Value.lean ====
import proofs.«146748_j31610959298744_1_alg».proof.Proof.KI.Launch
import proofs.«146748_j31610959298744_1_alg».proof.Proof.KI.HostVals
import proofs.«146748_j31610959298744_1_alg».proof.Proof.KI.R0Value
import proofs.«146748_j31610959298744_1_alg».proof.Proof.KI.R1Value
import proofs.«146748_j31610959298744_1_alg».proof.Proof.KI.R2Value
import proofs.«146748_j31610959298744_1_alg».proof.Proof.KI.R3Value
import proofs.«146748_j31610959298744_1_alg».proof.Proof.Args

set_option maxRecDepth 16384

noncomputable section

namespace Cert.KernelIdeal.Regs

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- No region and no host operation writes another's operand: each region finds its operands as they were left. -/
theorem V2_main_v1 (c : Dev nD) : V2 m ρ c main_v1 = V1 m ρ c main_v1 :=
  (W2_arr m ρ c 0).trans (((dat0 (V1 m ρ) c).arrAt_in 0 rfl _).trans (A_eq0 (V1 m ρ) c 0))

theorem V2_main_v5 (c : Dev nD) : V2 m ρ c main_v5 = V1 m ρ c main_v5 := W2_of_ne m ρ c main_v5 (by decide)

theorem V3_main_v9 (c : Dev nD) : V3 m ρ c main_v9 = V2 m ρ c main_v9 := W3_of_ne m ρ c main_v9 (by decide)

theorem V3_main_v6 (c : Dev nD) : V3 m ρ c main_v6 = V1 m ρ c main_v6 :=
  (W3_of_ne m ρ c main_v6 (by decide)).trans (W2_of_ne m ρ c main_v6 (by decide))
theorem V3_main_v8 (c : Dev nD) : V3 m ρ c main_v8 = V1 m ρ c main_v8 :=
  (W3_of_ne m ρ c main_v8 (by decide)).trans (W2_of_ne m ρ c main_v8 (by decide))

theorem V4_main_v10 (c : Dev nD) : V4 m ρ c main_v10 = V3 m ρ c main_v10 := W4_of_ne m ρ c main_v10 (by decide)

theorem V4_main_v7 (c : Dev nD) : V4 m ρ c main_v7 = V1 m ρ c main_v7 :=
  (W4_of_ne m ρ c main_v7 (by decide)).trans ((W3_of_ne m ρ c main_v7 (by decide)).trans (W2_of_ne m ρ c main_v7 (by decide)))

/-- Each region's array as a matrix of the arguments. -/
theorem x0_mat (c : Dev nD) :
    Cert.Args.mat (a := 8192) (b := 4096) (V2 m ρ c main_v9 : S8192x4096.Idx → EReal)
      = Cert.Spec.mmT (Cert.Args.rowsH (m ((c : Thread nD τ).loc main_arg0) : S2x4096x2048.Idx → EReal)) (Cert.Args.projX (m ((c : Thread nD τ).loc main_arg1) : S8192x2048.Idx → EReal)) := by
  have e : (V2 m ρ c main_v9 : S8192x4096.Idx → EReal) = prod0 (V1 m ρ) c := (W2_arr m ρ c 2).trans (final0 (V1 m ρ) c)
  funext p q
  show (V2 m ρ c main_v9 : S8192x4096.Idx → EReal) (ix2 p q) = _
  rw [e]
  show Cert.Spec.mmT (lmat0 (V1 m ρ) c) (rmat0 (V1 m ρ) c) p q = _
  rw [show lmat0 (V1 m ρ) c = Cert.Args.rowsH (m ((c : Thread nD τ).loc main_arg0) : S2x4096x2048.Idx → EReal) from V1_main_v1 m ρ c,
    show rmat0 (V1 m ρ) c = Cert.Args.projX (m ((c : Thread nD τ).loc main_arg1) : S8192x2048.Idx → EReal) from V1_main_v3 m ρ c]

theorem z_mat (c : Dev nD) :
    Cert.Args.mat (a := 8192) (b := 4096) (V3 m ρ c main_v10 : S8192x4096.Idx → EReal)
      = Cert.Spec.gateZ (Cert.Args.rowsH (m ((c : Thread nD τ).loc main_arg0) : S2x4096x2048.Idx → EReal)) (Cert.Args.projZ (m ((c : Thread nD τ).loc main_arg1) : S8192x2048.Idx → EReal)) := by
  have e : (V3 m ρ c main_v10 : S8192x4096.Idx → EReal) = gate1 (V2 m ρ) c := (W3_arr m ρ c 2).trans (final1 (V2 m ρ) c)
  funext p q
  show (V3 m ρ c main_v10 : S8192x4096.Idx → EReal) (ix2 p q) = _
  rw [e]
  show Cert.Spec.silu (Cert.Spec.mmT (lmat1 (V2 m ρ) c) (rmat1 (V2 m ρ) c) p q) = _
  rw [show lmat1 (V2 m ρ) c = Cert.Args.rowsH (m ((c : Thread nD τ).loc main_arg0) : S2x4096x2048.Idx → EReal) from (by show Cert.Args.mat (a := 8192) (b := 2048) (V2 m ρ c main_v1 : S8192x2048.Idx → EReal) = _; rw [V2_main_v1]; exact V1_main_v1 m ρ c),
    show rmat1 (V2 m ρ) c = Cert.Args.projZ (m ((c : Thread nD τ).loc main_arg1) : S8192x2048.Idx → EReal) from (by show Cert.Args.mat (a := 4096) (b := 2048) (V2 m ρ c main_v5 : S4096x2048.Idx → EReal) = _; rw [V2_main_v5]; exact V1_main_v5 m ρ c)]
  rfl

theorem y_mat (c : Dev nD) :
    Cert.Args.mat (a := 8192) (b := 4096) (V4 m ρ c main_v11 : S8192x4096.Idx → EReal)
      = Cert.Spec.convScale (Cert.Spec.mmT (Cert.Args.rowsH (m ((c : Thread nD τ).loc main_arg0) : S2x4096x2048.Idx → EReal)) (Cert.Args.projX (m ((c : Thread nD τ).loc main_arg1) : S8192x2048.Idx → EReal))) (Cert.Args.mat (m ((c : Thread nD τ).loc main_arg2) : S4096x4096.Idx → EReal)) (Cert.Args.vec (m ((c : Thread nD τ).loc main_arg6) : S4096.Idx → EReal)) := by
  have e : (V4 m ρ c main_v11 : S8192x4096.Idx → EReal) = scaled2 (V3 m ρ) c := (W4_arr m ρ c 3).trans (final2 (V3 m ρ) c)
  funext p q
  show (V4 m ρ c main_v11 : S8192x4096.Idx → EReal) (ix2 p q) = _
  rw [e]
  show Cert.Spec.mmT (lmat2 (V3 m ρ) c) (rmat2 (V3 m ρ) c) p q * dvec2 (V3 m ρ) c q = _
  rw [show lmat2 (V3 m ρ) c = Cert.Spec.mmT (Cert.Args.rowsH (m ((c : Thread nD τ).loc main_arg0) : S2x4096x2048.Idx → EReal)) (Cert.Args.projX (m ((c : Thread nD τ).loc main_arg1) : S8192x2048.Idx → EReal)) from (by show Cert.Args.mat (a := 8192) (b := 4096) (V3 m ρ c main_v9 : S8192x4096.Idx → EReal) = _; rw [V3_main_v9]; exact x0_mat m ρ c),
    show rmat2 (V3 m ρ) c = Cert.Args.mat (m ((c : Thread nD τ).loc main_arg2) : S4096x4096.Idx → EReal) from (by show Cert.Args.mat (a := 4096) (b := 4096) (V3 m ρ c main_v6 : S4096x4096.Idx → EReal) = _; rw [V3_main_v6, V1_main_v6]),
    show dvec2 (V3 m ρ) c q = Cert.Args.vec (m ((c : Thread nD τ).loc main_arg6) : S4096.Idx → EReal) q from (by show (V3 m ρ c main_v8 : S1x4096.Idx → EReal) (ix2 (0 : Fin 1) q) = _; rw [V3_main_v8]; exact V1_main_v8 m ρ c q)]
  rfl

/-- The returned array is the mixer of the arguments. -/
theorem kernel_result (c : Dev nD) :
    (W6 m ρ c (Proc.devRef .tc main_v13) : S2x4096x2048.Idx → EReal)
      = Cert.Args.result (m ((c : Thread nD τ).loc main_arg0) : S2x4096x2048.Idx → EReal) (m ((c : Thread nD τ).loc main_arg1) : S8192x2048.Idx → EReal) (m ((c : Thread nD τ).loc main_arg2) : S4096x4096.Idx → EReal) (m ((c : Thread nD τ).loc main_arg6) : S4096.Idx → EReal) (m ((c : Thread nD τ).loc main_arg7) : S2048x4096.Idx → EReal) := by
  have e : (W5 m ρ c (Proc.devRef .tc main_v12) : S8192x2048.Idx → EReal) = out3 (V4 m ρ) c := (W5_arr m ρ c 3).trans (final3 (V4 m ρ) c)
  funext i
  rw [W6_main_v13 m ρ c i, e]
  show Cert.Spec.mmT (fun p k => ymat3 (V4 m ρ) c p k * zmat3 (V4 m ρ) c p k) (wmat3 (V4 m ρ) c) (Cert.Args.tokenRow i) (i 2) = _
  rw [show ymat3 (V4 m ρ) c = _ from y_mat m ρ c,
    show zmat3 (V4 m ρ) c = Cert.Spec.gateZ (Cert.Args.rowsH (m ((c : Thread nD τ).loc main_arg0) : S2x4096x2048.Idx → EReal)) (Cert.Args.projZ (m ((c : Thread nD τ).loc main_arg1) : S8192x2048.Idx → EReal)) from (by show Cert.Args.mat (a := 8192) (b := 4096) (V4 m ρ c main_v10 : S8192x4096.Idx → EReal) = _; rw [V4_main_v10]; exact z_mat m ρ c),
    show wmat3 (V4 m ρ) c = Cert.Args.mat (m ((c : Thread nD τ).loc main_arg7) : S2048x4096.Idx → EReal) from (by show Cert.Args.mat (a := 2048) (b := 4096) (V4 m ρ c main_v7 : S2048x4096.Idx → EReal) = _; rw [V4_main_v7, V1_main_v7])]
  rfl

end Cert.KernelIdeal.Regs

end
-- ==== Proof.RefValue.lean ====
import proofs.«146748_j31610959298744_1_alg».proof.Proof.Gen.ReferenceIdeal.Run
import proofs.«146748_j31610959298744_1_alg».proof.Proof.Gen.ReferenceIdeal.Read
import proofs.«146748_j31610959298744_1_alg».proof.Proof.Args

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open scoped BigOperators

def row (b : Fin 2) (s : Fin 4096) : Fin 8192 :=
  ⟨4096 * b.val + s.val, by have hb := b.isLt; have hs := s.isLt; omega⟩

theorem tokenRow_ix3 (b : Fin 2) (s : Fin 4096) (h : Fin 2048) : Cert.Args.tokenRow (ix3 b s h) = row b s := rfl

/-- (4096·b + s) / 4096 = b and (4096·b + s) % 4096 = s. -/
theorem rowsH_row (x0 : (⟨S2x4096x2048, .f32⟩ : BufTy).Contents (Elt Ideal)) (b : Fin 2) (s : Fin 4096) (j : Fin 2048) :
    Cert.Args.rowsH x0 (row b s) j = x0 (ix3 b s j) := by
  have hb := b.isLt
  have hs := s.isLt
  unfold Cert.Args.rowsH row
  congr 1
  funext a
  match a with
  | ⟨0, _⟩ => exact Fin.ext (by show (4096 * b.val + s.val) / 4096 = b.val; omega)
  | ⟨1, _⟩ => exact Fin.ext (by show (4096 * b.val + s.val) % 4096 = s.val; omega)
  | ⟨2, _⟩ => rfl

theorem v0_ix3 (x0 : (⟨S2x4096x2048, .f32⟩ : BufTy).Contents (Elt Ideal)) (x1 : (⟨S8192x2048, .f32⟩ : BufTy).Contents (Elt Ideal))
    (b : Fin 2) (s : Fin 4096) (c : Fin 8192) :
    val_main_v0 (F := Ideal) x0 x1 (ix3 b s c) = ∑ k : Fin 2048, Cert.Args.rowsH x0 (row b s) k * x1 (ix2 c k) := by
  rw [val_main_v0_apply]
  refine Finset.sum_congr rfl fun k _ => ?_
  rw [rowsH_row]
  have el : lidx_main_v0 (ix3 b s c) k = ix3 b s k := funext fun a => by
    match a with | ⟨0, _⟩ => rfl | ⟨1, _⟩ => rfl | ⟨2, _⟩ => rfl
  have er : ridx_main_v0 (ix3 b s c) k = ix2 c k := funext fun a => by
    match a with | ⟨0, _⟩ => rfl | ⟨1, _⟩ => rfl
  rw [el, er]

theorem v1_ix3 (x0 : (⟨S2x4096x2048, .f32⟩ : BufTy).Contents (Elt Ideal)) (x1 : (⟨S8192x2048, .f32⟩ : BufTy).Contents (Elt Ideal))
    (b : Fin 2) (s : Fin 4096) (q : Fin 4096) :
    val_main_v1 (F := Ideal) x0 x1 (ix3 b s q)
      = Cert.Spec.mmT (Cert.Args.rowsH x0) (Cert.Args.projX x1) (row b s) q := by
  have e : idx_main_v1 (ix3 b s q) = ix3 b s (⟨q.val, by have := q.isLt; omega⟩ : Fin 8192) := funext fun a => by
    match a with | ⟨0, _⟩ => rfl | ⟨1, _⟩ => rfl | ⟨2, _⟩ => rfl
  rw [val_main_v1_apply, e, v0_ix3]
  rfl

theorem v2_ix3 (x0 : (⟨S2x4096x2048, .f32⟩ : BufTy).Contents (Elt Ideal)) (x1 : (⟨S8192x2048, .f32⟩ : BufTy).Contents (Elt Ideal))
    (b : Fin 2) (s : Fin 4096) (q : Fin 4096) :
    val_main_v2 (F := Ideal) x0 x1 (ix3 b s q)
      = Cert.Spec.mmT (Cert.Args.rowsH x0) (Cert.Args.projZ x1) (row b s) q := by
  have e : idx_main_v2 (ix3 b s q) = ix3 b s (⟨4096 + q.val, by have := q.isLt; omega⟩ : Fin 8192) := funext fun a => by
    match a with | ⟨0, _⟩ => rfl | ⟨1, _⟩ => rfl | ⟨2, _⟩ => rfl
  rw [val_main_v2_apply, e, v0_ix3]
  rfl

theorem v3_ix3 (x0 : (⟨S2x4096x2048, .f32⟩ : BufTy).Contents (Elt Ideal)) (x1 : (⟨S8192x2048, .f32⟩ : BufTy).Contents (Elt Ideal))
    (x2 : (⟨S4096x4096, .f32⟩ : BufTy).Contents (Elt Ideal)) (b : Fin 2) (s : Fin 4096) (q : Fin 4096) :
    val_main_v3 (F := Ideal) x0 x1 x2 (ix3 b s q)
      = Cert.Spec.mmT (Cert.Spec.mmT (Cert.Args.rowsH x0) (Cert.Args.projX x1)) (Cert.Args.mat x2) (row b s) q := by
  rw [val_main_v3_apply]
  show _ = ∑ k : Fin 4096, Cert.Spec.mmT (Cert.Args.rowsH x0) (Cert.Args.projX x1) (row b s) k * Cert.Args.mat x2 q k
  refine Finset.sum_congr rfl fun k _ => ?_
  have el : lidx_main_v3 (ix3 b s q) k = ix3 b s k := funext fun a => by
    match a with | ⟨0, _⟩ => rfl | ⟨1, _⟩ => rfl | ⟨2, _⟩ => rfl
  have er : ridx_main_v3 (ix3 b s q) k = ix2 q k := funext fun a => by
    match a with | ⟨0, _⟩ => rfl | ⟨1, _⟩ => rfl
  rw [el, er, v1_ix3]
  rfl

theorem v11_ix3 (x6 : (⟨S4096, .f32⟩ : BufTy).Contents (Elt Ideal)) (b : Fin 2) (s : Fin 4096) (q : Fin 4096) :
    val_main_v11 (F := Ideal) x6 (ix3 b s q) = Cert.Args.vec x6 q := by
  rw [val_main_v11_apply, val_main_v10_apply]
  have e : idx_main_v10 (idx_main_v11 (ix3 b s q)) = ix1 q := funext fun a => by
    match a with | ⟨0, _⟩ => rfl
  rw [e]
  rfl

/-- 1 / (1 + exp (-z)) with its literal ones is the logistic. -/
theorem call1_v5_eq (x0 : (⟨S2x4096x2048, .f32⟩ : BufTy).Contents (Elt Ideal)) (x1 : (⟨S8192x2048, .f32⟩ : BufTy).Contents (Elt Ideal))
    (j : S2x4096x4096.Idx) :
    val_main_call1_v5 (F := Ideal) x0 x1 j = Ideal.logistic (val_main_v2 (F := Ideal) x0 x1 j) := by
  have one : Ideal.ofBits .f32 0x3F800000#32 = 1 := IdealRules.sign_bit.ideal_onePat .f32
  rw [val_main_call1_v5_apply, val_main_call1_v4_apply, val_main_call1_cst_0_apply, val_main_call1_v3_apply,
    val_main_call1_v2_apply, val_main_call1_cst_apply, val_main_call1_v1_apply, val_main_call1_v0_apply,
    Ideal.hostDivf_def, Ideal.addf_def, Ideal.hostUnary_exp_def, Ideal.hostNegf_def, Ideal.negf_def, Ideal.ofBits_def, one]
  rfl

theorem v14_ix3 (x0 : (⟨S2x4096x2048, .f32⟩ : BufTy).Contents (Elt Ideal)) (x1 : (⟨S8192x2048, .f32⟩ : BufTy).Contents (Elt Ideal))
    (x2 : (⟨S4096x4096, .f32⟩ : BufTy).Contents (Elt Ideal)) (x6 : (⟨S4096, .f32⟩ : BufTy).Contents (Elt Ideal))
    (b : Fin 2) (s : Fin 4096) (q : Fin 4096) :
    val_main_v14 (F := Ideal) x0 x1 x2 x6 (ix3 b s q)
      = Cert.Spec.convScale (Cert.Spec.mmT (Cert.Args.rowsH x0) (Cert.Args.projX x1)) (Cert.Args.mat x2) (Cert.Args.vec x6) (row b s) q
        * Cert.Spec.gateZ (Cert.Args.rowsH x0) (Cert.Args.projZ x1) (row b s) q := by
  rw [val_main_v14_apply, val_main_v12_apply, val_main_v13_apply, call1_v5_eq, v3_ix3, v11_ix3, v2_ix3,
    Ideal.mulf_def, Ideal.mulf_def, Ideal.mulf_def]
  rfl

/-- The reference's last stage is the mixer of its arguments. -/
theorem ref_result (x0 : (⟨S2x4096x2048, .f32⟩ : BufTy).Contents (Elt Ideal)) (x1 : (⟨S8192x2048, .f32⟩ : BufTy).Contents (Elt Ideal))
    (x2 : (⟨S4096x4096, .f32⟩ : BufTy).Contents (Elt Ideal)) (x6 : (⟨S4096, .f32⟩ : BufTy).Contents (Elt Ideal))
    (x7 : (⟨S2048x4096, .f32⟩ : BufTy).Contents (Elt Ideal)) :
    val_main_v15 (F := Ideal) x0 x1 x2 x6 x7 = Cert.Args.result x0 x1 x2 x6 x7 := by
  funext i
  obtain ⟨b, s, h, rfl⟩ : ∃ (b : Fin 2) (s : Fin 4096) (h : Fin 2048), i = ix3 b s h := ⟨i 0, i 1, i 2, eq_ix3 i⟩
  rw [val_main_v15_apply]
  show _ = ∑ k : Fin 4096,
    (Cert.Spec.convScale (Cert.Spec.mmT (Cert.Args.rowsH x0) (Cert.Args.projX x1)) (Cert.Args.mat x2) (Cert.Args.vec x6) (row b s) k
      * Cert.Spec.gateZ (Cert.Args.rowsH x0) (Cert.Args.projZ x1) (row b s) k) * Cert.Args.mat x7 h k
  refine Finset.sum_congr rfl fun k _ => ?_
  have el : lidx_main_v15 (ix3 b s h) k = ix3 b s k := funext fun a => by
    match a with | ⟨0, _⟩ => rfl | ⟨1, _⟩ => rfl | ⟨2, _⟩ => rfl
  have er : ridx_main_v15 (ix3 b s h) k = ix2 h k := funext fun a => by
    match a with | ⟨0, _⟩ => rfl | ⟨1, _⟩ => rfl
  rw [el, er, v14_ix3]
  rfl

end Cert.ReferenceIdeal.RefValue

end
-- ==== Proof.lean ====
/- Both programs compute out = ((((H·Wxᵀ)·Cvᵀ) ∘ D) ∘ silu (H·Wzᵀ)) · Woᵀ (Spec.lean). The kernel cuts each of its four products
   into four blocks of the contraction and adds them onto zero; a finite sum of extended reals may be regrouped freely, so
   finiteness of the inputs is never used. The kernel program is printed twice with the same text: its run, proved once for any
   float instance, gives both of its frames. -/
import proofs.«146748_j31610959298744_1_alg».proof.Defs
import proofs.«146748_j31610959298744_1_alg».proof.Proof.Gen.Kernel
import proofs.«146748_j31610959298744_1_alg».proof.Proof.Gen.KernelIdeal
import proofs.«146748_j31610959298744_1_alg».proof.Proof.Gen.ReferenceIdeal
import proofs.«146748_j31610959298744_1_alg».proof.Proof.Gen.Pre_finite_inputs
import proofs.«146748_j31610959298744_1_alg».proof.Proof.Gen.ReferenceIdeal.Run
import proofs.«146748_j31610959298744_1_alg».proof.Proof.KI.Launch
import proofs.«146748_j31610959298744_1_alg».proof.Proof.KI.Value
import proofs.«146748_j31610959298744_1_alg».proof.Proof.RefValue
import proofs.«146748_j31610959298744_1_alg».proof.Proof.Args
import Idealize.ShloMosaic.Adequacy
import Idealize.ShloMosaic.Init

noncomputable section

namespace Cert.Proof

open Idealize.ShloMosaic Idealize.SL.Sem

section
open KernelIdeal.Facts₀

/-! The two printings of the kernel program define the same kernel functions, so their body tables agree at every label. -/

theorem body0 (t : Fin Kernel.grid0.N) (s : (w : Fin 3) → Fin (Kernel.win0 w).nbuf) :
    Kernel.defs₀ (F := Bits) .tc 0 (t, s) = KernelIdeal.defs₀ (F := Bits) .tc 0 (t, s) :=
  congrArg (fun f => f (KernelIdeal.grid0.coords t) (KernelIdeal.win0_0.stage (s 0)) (hstage0_0 ((s 0).cast nbuf0_0)) (KernelIdeal.win0_1.stage (s 1)) (hstage0_1 ((s 1).cast nbuf0_1)) (KernelIdeal.win0_2.stage (s 2)) (hstage0_2 ((s 2).cast nbuf0_2)) (Memref.whole KernelIdeal.cc0_scratch0) (Memref.isWhole_whole _))
    (rfl : @Kernel.cc0__proj_kernel Bits _ _ = @KernelIdeal.cc0__proj_kernel Bits _ _)

theorem body1 (t : Fin Kernel.grid1.N) (s : (w : Fin 3) → Fin (Kernel.win1 w).nbuf) :
    Kernel.defs₀ (F := Bits) .tc 1 (t, s) = KernelIdeal.defs₀ (F := Bits) .tc 1 (t, s) :=
  congrArg (fun f => f (KernelIdeal.grid1.coords t) (KernelIdeal.win1_0.stage (s 0)) (hstage1_0 ((s 0).cast nbuf1_0)) (KernelIdeal.win1_1.stage (s 1)) (hstage1_1 ((s 1).cast nbuf1_1)) (KernelIdeal.win1_2.stage (s 2)) (hstage1_2 ((s 2).cast nbuf1_2)) (Memref.whole KernelIdeal.cc1_scratch0) (Memref.isWhole_whole _))
    (rfl : @Kernel.cc1__proj_kernel Bits _ _ = @KernelIdeal.cc1__proj_kernel Bits _ _)

theorem body2 (t : Fin Kernel.grid2.N) (s : (w : Fin 4) → Fin (Kernel.win2 w).nbuf) :
    Kernel.defs₀ (F := Bits) .tc 2 (t, s) = KernelIdeal.defs₀ (F := Bits) .tc 2 (t, s) :=
  congrArg (fun f => f (KernelIdeal.grid2.coords t) (KernelIdeal.win2_0.stage (s 0)) (hstage2_0 ((s 0).cast nbuf2_0)) (KernelIdeal.win2_1.stage (s 1)) (hstage2_1 ((s 1).cast nbuf2_1)) (KernelIdeal.win2_2.stage (s 2)) (hstage2_2 ((s 2).cast nbuf2_2)) (KernelIdeal.win2_3.stage (s 3)) (hstage2_3 ((s 3).cast nbuf2_3)) (Memref.whole KernelIdeal.cc2_scratch0) (Memref.isWhole_whole _))
    (rfl : @Kernel.cc2__convscale_kernel Bits _ _ = @KernelIdeal.cc2__convscale_kernel Bits _ _)

theorem body3 (t : Fin Kernel.grid3.N) (s : (w : Fin 4) → Fin (Kernel.win3 w).nbuf) :
    Kernel.defs₀ (F := Bits) .tc 3 (t, s) = KernelIdeal.defs₀ (F := Bits) .tc 3 (t, s) :=
  congrArg (fun f => f (KernelIdeal.grid3.coords t) (KernelIdeal.win3_0.stage (s 0)) (hstage3_0 ((s 0).cast nbuf3_0)) (KernelIdeal.win3_1.stage (s 1)) (hstage3_1 ((s 1).cast nbuf3_1)) (KernelIdeal.win3_2.stage (s 2)) (hstage3_2 ((s 2).cast nbuf3_2)) (KernelIdeal.win3_3.stage (s 3)) (hstage3_3 ((s 3).cast nbuf3_3)) (Memref.whole KernelIdeal.cc3_scratch0) (Memref.isWhole_whole _))
    (rfl : @Kernel.cc3__gateout_kernel Bits _ _ = @KernelIdeal.cc3__gateout_kernel Bits _ _)

theorem defs_eq : Kernel.defs (F := Bits) = KernelIdeal.defs (F := Bits) :=
  congrArg (Pipeline.defs KernelIdeal.pcfgs) <| congrArg Defs.onTc <| funext fun l => funext fun a =>
    match l, a with
    | 0, (t, s) => body0 t s
    | 1, (t, s) => body1 t s
    | 2, (t, s) => body2 t s
    | 3, (t, s) => body3 t s

end

theorem frame_k : Cert.frame_Kernel (hKernel := Cert.Kernel.Gen.facts) (hPre_finite_inputs := Cert.Pre_finite_inputs.Gen.facts) := by
  intro m ρ _
  rw [defs_eq]
  exact Cert.KernelIdeal.Regs.frame (F := Bits) m ρ
theorem frame_ki : Cert.frame_KernelIdeal (hKernelIdeal := Cert.KernelIdeal.Gen.facts) (hPre_finite_inputs := Cert.Pre_finite_inputs.Gen.facts) :=
  fun m ρ _ => Cert.KernelIdeal.Regs.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments, the kernel program and the reference both end with the mixer of those arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Args.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Regs.run_all (F := Ideal) m ρ)
    exact ⟨(h c _ (Cert.KernelIdeal.Regs.mem_uc Cert.KernelIdeal.main_v13 (by decide))).trans (Cert.KernelIdeal.Regs.kernel_result m ρ c),
      Cert.KernelIdeal.Regs.kept m ρ r.2.mem h c⟩
  · refine (θ_run Cert.ReferenceIdeal.defs _ _).mono (fun _ h c => ⟨(h c).1.trans ?_, (h c).2⟩) (Cert.ReferenceIdeal.Value.run (F := Ideal) m' ρ')
    obtain ⟨a0, a1, a2, -, -, -, a6, a7⟩ := hagree c
    rw [a0, a1, a2, a6, a7]
    exact (Cert.ReferenceIdeal.Read.val_main_v15_eq _ _ _ _ _).trans (Cert.ReferenceIdeal.RefValue.ref_result _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
